-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_arg8 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg7 main_v34
  let main_c_13 : IVec S_ 32 := constantI S_ 32 50000#32
  let main_v36 : IVec S800000 32 := broadcastInDim S800000 ![] bcast_S_S800000 main_c_13
  let main_v37 : IVec S800000 1 := cmpi .slt main_arg7 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  let main_c_15 : IVec S_ 32 := constantI S_ 32 0#32
  let main_v41 : IVec S800000 32 := broadcastInDim S800000 ![] bcast_S_S800000 main_c_15
  let main_v42 : IVec S800000 1 := cmpi .sge main_arg8 main_v41
  let main_c_16 : IVec S_ 32 := constantI S_ 32 50000#32
  let main_v43 : IVec S800000 32 := broadcastInDim S800000 ![] bcast_S_S800000 main_c_16
  let main_v44 : IVec S800000 1 := cmpi .slt main_arg8 main_v43
  let main_v45 : IVec S800000 1 := andi main_v42 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v40 main_v46
  main_v47

def fn_part1 {F : FTy → Type} [FloatOps F] (main_arg4 : FVec F S128 .f32) (main_arg5 : FVec F S128 .f32) (main_arg6 : FVec F S128 .f32) (main_arg7 : IVec S800000 32) (main_arg8 : IVec S800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128 .f32) (main_arg6 : FVec F S128 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S100000x128 : Shape := ⟨2, ![100000, 128]⟩
abbrev S8x128 : Shape := ⟨2, ![8, 128]⟩
abbrev S1 : Shape := ⟨1, ![1]⟩
abbrev S1x128 : Shape := ⟨2, ![1, 128]⟩
abbrev S16x128 : Shape := ⟨2, ![16, 128]⟩
abbrev S5000x128 : Shape := ⟨2, ![5000, 128]⟩
abbrev S5000x1 : Shape := ⟨2, ![5000, 1]⟩

abbrev nBuf : Space → Nat
  | .hbm => 79
  | .vmem => 32
  | .smem => 4
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S100000x128, .f32⟩
  | .hbm, ⟨47, _⟩ => ⟨S1x128, .f32⟩
  | .hbm, ⟨48, _⟩ => ⟨S1x128, .f32⟩
  | .hbm, ⟨49, _⟩ => ⟨S50000x1, .f32⟩
  | .hbm, ⟨50, _⟩ => ⟨S50000x128, .f32⟩
  | .hbm, ⟨51, _⟩ => ⟨S16x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S16x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S50000x128, .f32⟩
  | .local _ .vmem, ⟨0, _⟩ => ⟨S50000x128, .f32⟩
  | .local _ .vmem, ⟨1, _⟩ => ⟨S50000x128, .f32⟩
  | .local _ .vmem, ⟨2, _⟩ => ⟨S8x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S8x128, .f32⟩
  | .local _ .vmem, ⟨18, _⟩ => ⟨S8x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S8x128, .f32⟩
  | .local _ .vmem, ⟨23, _⟩ => ⟨S8x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_cst_3 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_4 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_5 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_6 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22_0 : Ref sig .tc := ⟨.hbm, 50, rfl⟩
abbrev main_v22_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨2, ![2, 3125], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c0_i32_5 : BitVec 32 := 0#32
  let v7 : BitVec 32 := Scalar.addi v6 c0_i32_5
  let v8 : Index := Scalar.indexCast v7
  ![v8.toNat]
def k0_off2 (v9 : BitVec 32) : Fin 2 → Nat :=
  let v10 : Index := Scalar.indexCast v9
  let c0 : Index := 0#32
  ![v10.toNat, 0]

def k0_chk1 (v9 : BitVec 32) : Prop :=
  (∀ a, (k0_off2 v9) a + S1x128.size a ≤ S50000x128.size a)
instance k0_chk1.dec : ∀ (v9 : BitVec 32), Decidable (k0_chk1 v9) := fun v9 => decidable_of_iff' _ (Iff.of_eq (k0_chk1.eq_1 v9))
theorem k0_off2_inb : ∀ (v9 : BitVec 32) (k0_hw1 : k0_chk1 v9), ∀ a, (k0_off2 v9) a + S1x128.size a ≤ S50000x128.size a := fun v9 k0_hw1 => k0_hw1

def k0_off3 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c1_i32_7 : BitVec 32 := 1#32
  let v17 : BitVec 32 := Scalar.addi v6 c1_i32_7
  let v18 : Index := Scalar.indexCast v17
  ![v18.toNat]
def k0_off4 (v19 : BitVec 32) : Fin 2 → Nat :=
  let v20 : Index := Scalar.indexCast v19
  let c0_8 : Index := 0#32
  ![v20.toNat, 0]

def k0_chk2 (v19 : BitVec 32) : Prop :=
  (∀ a, (k0_off4 v19) a + S1x128.size a ≤ S50000x128.size a)
instance k0_chk2.dec : ∀ (v19 : BitVec 32), Decidable (k0_chk2 v19) := fun v19 => decidable_of_iff' _ (Iff.of_eq (k0_chk2.eq_1 v19))
theorem k0_off4_inb : ∀ (v19 : BitVec 32) (k0_hw2 : k0_chk2 v19), ∀ a, (k0_off4 v19) a + S1x128.size a ≤ S50000x128.size a := fun v19 k0_hw2 => k0_hw2

def k0_off5 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c2_i32 : BitVec 32 := 2#32
  let v27 : BitVec 32 := Scalar.addi v6 c2_i32
  let v28 : Index := Scalar.indexCast v27
  ![v28.toNat]
def k0_off6 (v29 : BitVec 32) : Fin 2 → Nat :=
  let v30 : Index := Scalar.indexCast v29
  let c0_10 : Index := 0#32
  ![v30.toNat, 0]

def k0_chk3 (v29 : BitVec 32) : Prop :=
  (∀ a, (k0_off6 v29) a + S1x128.size a ≤ S50000x128.size a)
instance k0_chk3.dec : ∀ (v29 : BitVec 32), Decidable (k0_chk3 v29) := fun v29 => decidable_of_iff' _ (Iff.of_eq (k0_chk3.eq_1 v29))
theorem k0_off6_inb : ∀ (v29 : BitVec 32) (k0_hw3 : k0_chk3 v29), ∀ a, (k0_off6 v29) a + S1x128.size a ≤ S50000x128.size a := fun v29 k0_hw3 => k0_hw3

def k0_off7 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c3_i32 : BitVec 32 := 3#32
  let v37 : BitVec 32 := Scalar.addi v6 c3_i32
  let v38 : Index := Scalar.indexCast v37
  ![v38.toNat]
def k0_off8 (v39 : BitVec 32) : Fin 2 → Nat :=
  let v40 : Index := Scalar.indexCast v39
  let c0_12 : Index := 0#32
  ![v40.toNat, 0]

def k0_chk4 (v39 : BitVec 32) : Prop :=
  (∀ a, (k0_off8 v39) a + S1x128.size a ≤ S50000x128.size a)
instance k0_chk4.dec : ∀ (v39 : BitVec 32), Decidable (k0_chk4 v39) := fun v39 => decidable_of_iff' _ (Iff.of_eq (k0_chk4.eq_1 v39))
theorem k0_off8_inb : ∀ (v39 : BitVec 32) (k0_hw4 : k0_chk4 v39), ∀ a, (k0_off8 v39) a + S1x128.size a ≤ S50000x128.size a := fun v39 k0_hw4 => k0_hw4

def k0_off9 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c4_i32 : BitVec 32 := 4#32
  let v47 : BitVec 32 := Scalar.addi v6 c4_i32
  let v48 : Index := Scalar.indexCast v47
  ![v48.toNat]
def k0_off10 (v49 : BitVec 32) : Fin 2 → Nat :=
  let v50 : Index := Scalar.indexCast v49
  let c0_14 : Index := 0#32
  ![v50.toNat, 0]

def k0_chk5 (v49 : BitVec 32) : Prop :=
  (∀ a, (k0_off10 v49) a + S1x128.size a ≤ S50000x128.size a)
instance k0_chk5.dec : ∀ (v49 : BitVec 32), Decidable (k0_chk5 v49) := fun v49 => decidable_of_iff' _ (Iff.of_eq (k0_chk5.eq_1 v49))
theorem k0_off10_inb : ∀ (v49 : BitVec 32) (k0_hw5 : k0_chk5 v49), ∀ a, (k0_off10 v49) a + S1x128.size a ≤ S50000x128.size a := fun v49 k0_hw5 => k0_hw5

def k0_off11 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c5_i32 : BitVec 32 := 5#32
  let v57 : BitVec 32 := Scalar.addi v6 c5_i32
  let v58 : Index := Scalar.indexCast v57
  ![v58.toNat]
def k0_off12 (v59 : BitVec 32) : Fin 2 → Nat :=
  let v60 : Index := Scalar.indexCast v59
  let c0_16 : Index := 0#32
  ![v60.toNat, 0]

def k0_chk6 (v59 : BitVec 32) : Prop :=
  (∀ a, (k0_off12 v59) a + S1x128.size a ≤ S50000x128.size a)
instance k0_chk6.dec : ∀ (v59 : BitVec 32), Decidable (k0_chk6 v59) := fun v59 => decidable_of_iff' _ (Iff.of_eq (k0_chk6.eq_1 v59))
theorem k0_off12_inb : ∀ (v59 : BitVec 32) (k0_hw6 : k0_chk6 v59), ∀ a, (k0_off12 v59) a + S1x128.size a ≤ S50000x128.size a := fun v59 k0_hw6 => k0_hw6

def k0_off13 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c6_i32 : BitVec 32 := 6#32
  let v67 : BitVec 32 := Scalar.addi v6 c6_i32
  let v68 : Index := Scalar.indexCast v67
  ![v68.toNat]
def k0_off14 (v69 : BitVec 32) : Fin 2 → Nat :=
  let v70 : Index := Scalar.indexCast v69
  let c0_18 : Index := 0#32
  ![v70.toNat, 0]

def k0_chk7 (v69 : BitVec 32) : Prop :=
  (∀ a, (k0_off14 v69) a + S1x128.size a ≤ S50000x128.size a)
instance k0_chk7.dec : ∀ (v69 : BitVec 32), Decidable (k0_chk7 v69) := fun v69 => decidable_of_iff' _ (Iff.of_eq (k0_chk7.eq_1 v69))
theorem k0_off14_inb : ∀ (v69 : BitVec 32) (k0_hw7 : k0_chk7 v69), ∀ a, (k0_off14 v69) a + S1x128.size a ≤ S50000x128.size a := fun v69 k0_hw7 => k0_hw7

def k0_off15 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c7_i32 : BitVec 32 := 7#32
  let v77 : BitVec 32 := Scalar.addi v6 c7_i32
  let v78 : Index := Scalar.indexCast v77
  ![v78.toNat]
def k0_off16 (v79 : BitVec 32) : Fin 2 → Nat :=
  let v80 : Index := Scalar.indexCast v79
  let c0_20 : Index := 0#32
  ![v80.toNat, 0]

def k0_chk8 (v79 : BitVec 32) : Prop :=
  (∀ a, (k0_off16 v79) a + S1x128.size a ≤ S50000x128.size a)
instance k0_chk8.dec : ∀ (v79 : BitVec 32), Decidable (k0_chk8 v79) := fun v79 => decidable_of_iff' _ (Iff.of_eq (k0_chk8.eq_1 v79))
theorem k0_off16_inb : ∀ (v79 : BitVec 32) (k0_hw8 : k0_chk8 v79), ∀ a, (k0_off16 v79) a + S1x128.size a ≤ S50000x128.size a := fun v79 k0_hw8 => k0_hw8

def k0_off17 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c0_i32_23 : BitVec 32 := 0#32
  let v87 : BitVec 32 := Scalar.addi v6 c0_i32_23
  let v88 : Index := Scalar.indexCast v87
  ![v88.toNat]
def k0_off18 (v89 : BitVec 32) : Fin 2 → Nat :=
  let v90 : Index := Scalar.indexCast v89
  let c0_24 : Index := 0#32
  ![v90.toNat, 0]

def k0_chk9 (v89 : BitVec 32) : Prop :=
  (∀ a, (k0_off18 v89) a + S1x128.size a ≤ S50000x128.size a)
instance k0_chk9.dec : ∀ (v89 : BitVec 32), Decidable (k0_chk9 v89) := fun v89 => decidable_of_iff' _ (Iff.of_eq (k0_chk9.eq_1 v89))
theorem k0_off18_inb : ∀ (v89 : BitVec 32) (k0_hw9 : k0_chk9 v89), ∀ a, (k0_off18 v89) a + S1x128.size a ≤ S50000x128.size a := fun v89 k0_hw9 => k0_hw9

def k0_off19 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c1_i32_27 : BitVec 32 := 1#32
  let v101 : BitVec 32 := Scalar.addi v6 c1_i32_27
  let v102 : Index := Scalar.indexCast v101
  ![v102.toNat]
def k0_off20 (v103 : BitVec 32) : Fin 2 → Nat :=
  let v104 : Index := Scalar.indexCast v103
  let c0_28 : Index := 0#32
  ![v104.toNat, 0]

def k0_chk10 (v103 : BitVec 32) : Prop :=
  (∀ a, (k0_off20 v103) a + S1x128.size a ≤ S50000x128.size a)
instance k0_chk10.dec : ∀ (v103 : BitVec 32), Decidable (k0_chk10 v103) := fun v103 => decidable_of_iff' _ (Iff.of_eq (k0_chk10.eq_1 v103))
theorem k0_off20_inb : ∀ (v103 : BitVec 32) (k0_hw10 : k0_chk10 v103), ∀ a, (k0_off20 v103) a + S1x128.size a ≤ S50000x128.size a := fun v103 k0_hw10 => k0_hw10

def k0_off21 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c2_i32_31 : BitVec 32 := 2#32
  let v115 : BitVec 32 := Scalar.addi v6 c2_i32_31
  let v116 : Index := Scalar.indexCast v115
  ![v116.toNat]
def k0_off22 (v117 : BitVec 32) : Fin 2 → Nat :=
  let v118 : Index := Scalar.indexCast v117
  let c0_32 : Index := 0#32
  ![v118.toNat, 0]

def k0_chk11 (v117 : BitVec 32) : Prop :=
  (∀ a, (k0_off22 v117) a + S1x128.size a ≤ S50000x128.size a)
instance k0_chk11.dec : ∀ (v117 : BitVec 32), Decidable (k0_chk11 v117) := fun v117 => decidable_of_iff' _ (Iff.of_eq (k0_chk11.eq_1 v117))
theorem k0_off22_inb : ∀ (v117 : BitVec 32) (k0_hw11 : k0_chk11 v117), ∀ a, (k0_off22 v117) a + S1x128.size a ≤ S50000x128.size a := fun v117 k0_hw11 => k0_hw11

def k0_off23 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c3_i32_35 : BitVec 32 := 3#32
  let v129 : BitVec 32 := Scalar.addi v6 c3_i32_35
  let v130 : Index := Scalar.indexCast v129
  ![v130.toNat]
def k0_off24 (v131 : BitVec 32) : Fin 2 → Nat :=
  let v132 : Index := Scalar.indexCast v131
  let c0_36 : Index := 0#32
  ![v132.toNat, 0]

def k0_chk12 (v131 : BitVec 32) : Prop :=
  (∀ a, (k0_off24 v131) a + S1x128.size a ≤ S50000x128.size a)
instance k0_chk12.dec : ∀ (v131 : BitVec 32), Decidable (k0_chk12 v131) := fun v131 => decidable_of_iff' _ (Iff.of_eq (k0_chk12.eq_1 v131))
theorem k0_off24_inb : ∀ (v131 : BitVec 32) (k0_hw12 : k0_chk12 v131), ∀ a, (k0_off24 v131) a + S1x128.size a ≤ S50000x128.size a := fun v131 k0_hw12 => k0_hw12

def k0_off25 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c4_i32_39 : BitVec 32 := 4#32
  let v143 : BitVec 32 := Scalar.addi v6 c4_i32_39
  let v144 : Index := Scalar.indexCast v143
  ![v144.toNat]
def k0_off26 (v145 : BitVec 32) : Fin 2 → Nat :=
  let v146 : Index := Scalar.indexCast v145
  let c0_40 : Index := 0#32
  ![v146.toNat, 0]

def k0_chk13 (v145 : BitVec 32) : Prop :=
  (∀ a, (k0_off26 v145) a + S1x128.size a ≤ S50000x128.size a)
instance k0_chk13.dec : ∀ (v145 : BitVec 32), Decidable (k0_chk13 v145) := fun v145 => decidable_of_iff' _ (Iff.of_eq (k0_chk13.eq_1 v145))
theorem k0_off26_inb : ∀ (v145 : BitVec 32) (k0_hw13 : k0_chk13 v145), ∀ a, (k0_off26 v145) a + S1x128.size a ≤ S50000x128.size a := fun v145 k0_hw13 => k0_hw13

def k0_off27 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c5_i32_43 : BitVec 32 := 5#32
  let v157 : BitVec 32 := Scalar.addi v6 c5_i32_43
  let v158 : Index := Scalar.indexCast v157
  ![v158.toNat]
def k0_off28 (v159 : BitVec 32) : Fin 2 → Nat :=
  let v160 : Index := Scalar.indexCast v159
  let c0_44 : Index := 0#32
  ![v160.toNat, 0]

def k0_chk14 (v159 : BitVec 32) : Prop :=
  (∀ a, (k0_off28 v159) a + S1x128.size a ≤ S50000x128.size a)
instance k0_chk14.dec : ∀ (v159 : BitVec 32), Decidable (k0_chk14 v159) := fun v159 => decidable_of_iff' _ (Iff.of_eq (k0_chk14.eq_1 v159))
theorem k0_off28_inb : ∀ (v159 : BitVec 32) (k0_hw14 : k0_chk14 v159), ∀ a, (k0_off28 v159) a + S1x128.size a ≤ S50000x128.size a := fun v159 k0_hw14 => k0_hw14

def k0_off29 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c6_i32_47 : BitVec 32 := 6#32
  let v171 : BitVec 32 := Scalar.addi v6 c6_i32_47
  let v172 : Index := Scalar.indexCast v171
  ![v172.toNat]
def k0_off30 (v173 : BitVec 32) : Fin 2 → Nat :=
  let v174 : Index := Scalar.indexCast v173
  let c0_48 : Index := 0#32
  ![v174.toNat, 0]

def k0_chk15 (v173 : BitVec 32) : Prop :=
  (∀ a, (k0_off30 v173) a + S1x128.size a ≤ S50000x128.size a)
instance k0_chk15.dec : ∀ (v173 : BitVec 32), Decidable (k0_chk15 v173) := fun v173 => decidable_of_iff' _ (Iff.of_eq (k0_chk15.eq_1 v173))
theorem k0_off30_inb : ∀ (v173 : BitVec 32) (k0_hw15 : k0_chk15 v173), ∀ a, (k0_off30 v173) a + S1x128.size a ≤ S50000x128.size a := fun v173 k0_hw15 => k0_hw15

def k0_off31 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v4 : BitVec 32 := Scalar.muli arg7 c1_i32_3
  let v5 : BitVec 32 := Scalar.addi c0_i32_4 v4
  let c8_i32 : BitVec 32 := 8#32
  let v6 : BitVec 32 := Scalar.muli v5 c8_i32
  let c7_i32_51 : BitVec 32 := 7#32
  let v185 : BitVec 32 := Scalar.addi v6 c7_i32_51
  let v186 : Index := Scalar.indexCast v185
  ![v186.toNat]
def k0_off32 (v187 : BitVec 32) : Fin 2 → Nat :=
  let v188 : Index := Scalar.indexCast v187
  let c0_52 : Index := 0#32
  ![v188.toNat, 0]

def k0_chk16 (v187 : BitVec 32) : Prop :=
  (∀ a, (k0_off32 v187) a + S1x128.size a ≤ S50000x128.size a)
instance k0_chk16.dec : ∀ (v187 : BitVec 32), Decidable (k0_chk16 v187) := fun v187 => decidable_of_iff' _ (Iff.of_eq (k0_chk16.eq_1 v187))
theorem k0_off32_inb : ∀ (v187 : BitVec 32) (k0_hw16 : k0_chk16 v187), ∀ a, (k0_off32 v187) a + S1x128.size a ≤ S50000x128.size a := fun v187 k0_hw16 => k0_hw16

def cc0_transform_0 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .smem S128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S50000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S50000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c10_i32 : BitVec 32 := 10#32
  let v2 : BitVec 32 := Scalar.addi c10_i32 v1
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S50000x128_S50000x128_0_0 : ∀ a, (![0, 0] : Fin 2 → Nat) a + S50000x128.size a ≤ S50000x128.size a
  h_S50000x128 : 0 < S50000x128.numel
  numel1_S1 : S1.numel = 1
  h_S1x128 : 0 < S1x128.numel
  shapeCasts_S1x128_S128 : S1x128.ShapeCasts S128
  inb_S8x128_S1x128_0_0 : ∀ a, (![0, 0] : Fin 2 → Nat) a + S1x128.size a ≤ S8x128.size a
  shapeCasts_S128_S1x128 : S128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  shapeCasts_S50000_S50000x1 : S50000.ShapeCasts S50000x1
  inb_S8x128_S8x128_0_0 : ∀ a, (![0, 0] : Fin 2 → Nat) a + S8x128.size a ≤ S8x128.size a
  h_S8x128 : 0 < S8x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  shapeCasts_S1x128_S1x128 : S1x128.ShapeCasts S1x128
  broadcasts_S1x128_S5000x128 : S1x128.Broadcasts S5000x128
  reduces_S5000x128_S128 : S5000x128.Reduces [0] S128
  slices_S16x128_S1x128_0_0 : S16x128.Slices ![0, 0] S1x128
  slices_S16x128_S1x128_8_0 : S16x128.Slices ![8, 0] S1x128
  bcast_S_S128 : S_.BroadcastsInDim S128 (![] : Fin 0 → Fin S128.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  k0_t1_ok : k0_t1_loop.OK
  k0_off1_inb : ∀ k0_t1 : Fin k0_t1_loop.trips, ∀ a, (k0_off1 k0_t1) a + S1.size a ≤ S128.size a
  k0_off3_inb : ∀ k0_t1 : Fin k0_t1_loop.trips, ∀ a, (k0_off3 k0_t1) a + S1.size a ≤ S128.size a
  k0_off5_inb : ∀ k0_t1 : Fin k0_t1_loop.trips, ∀ a, (k0_off5 k0_t1) a + S1.size a ≤ S128.size a
  k0_off7_inb : ∀ k0_t1 : Fin k0_t1_loop.trips, ∀ a, (k0_off7 k0_t1) a + S1.size a ≤ S128.size a
  k0_off9_inb : ∀ k0_t1 : Fin k0_t1_loop.trips, ∀ a, (k0_off9 k0_t1) a + S1.size a ≤ S128.size a
  k0_off11_inb : ∀ k0_t1 : Fin k0_t1_loop.trips, ∀ a, (k0_off11 k0_t1) a + S1.size a ≤ S128.size a
  k0_off13_inb : ∀ k0_t1 : Fin k0_t1_loop.trips, ∀ a, (k0_off13 k0_t1) a + S1.size a ≤ S128.size a
  k0_off15_inb : ∀ k0_t1 : Fin k0_t1_loop.trips, ∀ a, (k0_off15 k0_t1) a + S1.size a ≤ S128.size a
  k0_off17_inb : ∀ k0_t1 : Fin k0_t1_loop.trips, ∀ a, (k0_off17 k0_t1) a + S1.size a ≤ S128.size a
  k0_off19_inb : ∀ k0_t1 : Fin k0_t1_loop.trips, ∀ a, (k0_off19 k0_t1) a + S1.size a ≤ S128.size a
  k0_off21_inb : ∀ k0_t1 : Fin k0_t1_loop.trips, ∀ a, (k0_off21 k0_t1) a + S1.size a ≤ S128.size a
  k0_off23_inb : ∀ k0_t1 : Fin k0_t1_loop.trips, ∀ a, (k0_off23 k0_t1) a + S1.size a ≤ S128.size a
  k0_off25_inb : ∀ k0_t1 : Fin k0_t1_loop.trips, ∀ a, (k0_off25 k0_t1) a + S1.size a ≤ S128.size a
  k0_off27_inb : ∀ k0_t1 : Fin k0_t1_loop.trips, ∀ a, (k0_off27 k0_t1) a + S1.size a ≤ S128.size a
  k0_off29_inb : ∀ k0_t1 : Fin k0_t1_loop.trips, ∀ a, (k0_off29 k0_t1) a + S1.size a ≤ S128.size a
  k0_off31_inb : ∀ k0_t1 : Fin k0_t1_loop.trips, ∀ a, (k0_off31 k0_t1) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S800000.size a
  hwx0_0 : ∀ i : grid0.Coords, EltTy.bits .i32 = 32 ∨ (Rect.block (s := S800000) S128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S800000.size a
  hwx0_1 : ∀ i : grid0.Coords, EltTy.bits .i32 = 32 ∨ (Rect.block (s := S800000) S128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50000x128.size a ≤ S50000x128.size a
  hwx0_2 : ∀ i : grid0.Coords, EltTy.bits .f32 = 32 ∨ (Rect.block (s := S50000x128) S50000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50000x128.size a ≤ S100000x128.size a
  hwx0_3 : ∀ i : grid0.Coords, EltTy.bits .f32 = 32 ∨ (Rect.block (s := S100000x128) S50000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S16x128.size a
  hwx1_9 : ∀ i : grid1.Coords, EltTy.bits .f32 = 32 ∨ (Rect.block (s := S16x128) S8x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S16x128.size a
  hwx2_2 : ∀ i : grid2.Coords, EltTy.bits .f32 = 32 ∨ (Rect.block (s := S16x128) S8x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S50000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S50000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v22_1) S8x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v22_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call0_cst : Ref sig .tc := ⟨.hbm, 86, rfl⟩
abbrev main_call0_v0 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KbFold.lean ====
import proofs.«421496_j55748675502408_4_alg».proof.Proof.Gen.Kernel.Launch
import proofs.«421496_j55748675502408_4_alg».proof.Proof.Gen.Kernel.Regions

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev W2 (c : Dev nD) : Valuation τ sig (Elt F) := StableHlo.after hostOps0_1 (W1 m c)

abbrev W3 (c : Dev nD) : Valuation τ sig (Elt F) := StableHlo.after hostOps0_2 (W2 m c)

abbrev W4 (c : Dev nD) : Valuation τ sig (Elt F) := StableHlo.after hostOps0_3 (W3 m c)

abbrev W5 (c : Dev nD) : Valuation τ sig (Elt F) := StableHlo.after hostOps0_4 (W4 m c)

abbrev Vin0 : (c : Dev nD) → (b : Ref sig .tc) → Buf (Elt F) ((c : Thread nD τ).loc b) := fun c b => W5 m c b

end Cert.Kernel.Hand

end
-- ==== Proof.KbR0.lean ====
import proofs.«421496_j55748675502408_4_alg».proof.Proof.Gen.Kernel.Launch
import proofs.«421496_j55748675502408_4_alg».proof.Proof.Gen.Kernel.Skeleton
import proofs.«421496_j55748675502408_4_alg».proof.Proof.Gen.Kernel.Points
import proofs.«421496_j55748675502408_4_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def InRange0 : Prop := ∀ (c : Dev nD) (i : S800000.Idx), (V c main_v0 i).toNat < 50000 ∧ (V c main_v1 i).toNat < 50000

theorem iblk0_0_lt (hV : InRange0 V) (c : Dev nD) (t : Fin cfg0.N) (y : S128.Idx) : (iblk0 V c 0 t y).toNat < 50000 :=
  (hV c _).1
theorem iblk0_1_lt (hV : InRange0 V) (c : Dev nD) (t : Fin cfg0.N) (y : S128.Idx) : (iblk0 V c 1 t y).toNat < 50000 :=
  (hV c _).2

/-- A word below 50000 names a whole row of the (50000,128) arrays. -/
theorem chk_of_lt (v : BitVec 32) (h : v.toNat < 50000) :
    ∀ a, (![(Scalar.indexCast v : Index).toNat, 0] : Fin 2 → Nat) a + S1x128.size a ≤ S50000x128.size a :=
  Fin.forall_fin_two.2 ⟨h, Nat.le_refl _⟩

/-- A word loaded from a whole memref is an entry of what the memref reads as. -/
theorem lt_of_word {sp : Space} {m : Memref sig .tc sp S128 .i32} (h : m.IsWhole) (X : Vec F S128 .i32) (hX : ∀ y, (X y).toNat < 50000)
    (B : LoadRect S128) (x : B.shape.Idx) : (View.readAt (Elt F) m.view B (h.unread X) x).toNat < 50000 := by
  rw [View.readAt_apply, h.read_unread]; exact hX _

abbrev Trip0 (c : Dev nD) (arg2 : Memref sig .tc .smem S128 .i32) (arg3 : Memref sig .tc .smem S128 .i32) (arg4 : Memref sig .tc .vmem S50000x128 .f32) (arg5 : Memref sig .tc .vmem S50000x128 .f32) (arg6 : Memref sig .tc .vmem S8x128 .f32)
    (X2 : BufTy.Contents (Elt F) arg2.view.ty) (X3 : BufTy.Contents (Elt F) arg3.view.ty) (X4 : BufTy.Contents (Elt F) arg4.view.ty)
    (f5 : BufTy.Contents (Elt F) arg5.view.ty) (f6 : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} f5)
    ∗ (arg6.view.loc (c : Thread nD τ) ↦[arg6.view.set]{fullShare} f6))

abbrev cond0_0 (i : grid0.Coords) : Prop := (Scalar.cmpi .ne (Scalar.extui (Scalar.cmpi .eq (BitVec.ofNat 32 (i 1).val) 0#32)) 0#32) = 1#1

/-- The body's branch is taken exactly at the first point of each core's row of the grid. -/
theorem hcond0_0 : ∀ t : Fin cfg0.N, cond0_0 (grid0.coords t) ↔ t.val % 3125 = 0 :=
  (by decide +kernel : ∀ t : Fin grid0.N, cond0_0 (grid0.coords t) ↔ t.val % 3125 = 0)

def zeros0 : Vec F S50000x128 .f32 := k0_pay1 (F := F)

/-- A store of a whole block reads back as the block stored. -/
theorem zfill_read {sp : Space} (m : Memref sig .tc sp S50000x128 .f32) (f : BufTy.Contents (Elt F) m.view.ty)
    (inb : ∀ a, (![0, 0] : Fin 2 → ℕ) a + S50000x128.size a ≤ S50000x128.size a)
    (w : (Rect.unit (s := S50000x128) ![0, 0] S50000x128.size inb).shape.Idx → Elt F .f32) :
    m.view.read (Elt F) (m.view.writes (Elt F) f [⟨Rect.unit (s := S50000x128) ![0, 0] S50000x128.size inb, w⟩]) = w := by
  funext y
  have hy : (Rect.unit (s := S50000x128) ![0, 0] S50000x128.size inb).emb y = y := funext fun a => Fin.ext (by
    show (![0, 0] : Fin 2 → ℕ) a + 1 * (y a).val = (y a).val
    fin_cases a <;> simp)
  have h := View.read_writes_cons_emb m.view f (Rect.unit (s := S50000x128) ![0, 0] S50000x128.size inb) w [] y
  rwa [hy] at h

/-- A whole memref owned at x is its elements held at the contents that read x. -/
theorem owns_unread0 {sp : Space} {sh : Shape} {e : EltTy} {m : Memref sig .tc sp sh e} (h : m.IsWhole) (c : Dev nD) (x : sh.Idx → Elt F e) :
    (owns (c : Thread nD τ) m fullShare x : sProp 𝕄) = (m.view.loc (c : Thread nD τ) ↦[m.view.set]{fullShare} h.unread x) := by
  rw [owns_eq_rep, h.eq_unread (View.read_rep _ _)]

section
variable (c : Dev nD) (i : grid0.Coords) (arg2 : Memref sig .tc .smem S128 .i32) (harg2 : arg2.IsWhole) (arg3 : Memref sig .tc .smem S128 .i32) (harg3 : arg3.IsWhole) (arg4 : Memref sig .tc .vmem S50000x128 .f32) (harg4 : arg4.IsWhole) (arg5 : Memref sig .tc .vmem S50000x128 .f32) (harg5 : arg5.IsWhole) (arg6 : Memref sig .tc .vmem S8x128 .f32) (harg6 : arg6.IsWhole)
  (x2 x3 : Vec F S128 .i32) (hx2 : ∀ y, (x2 y).toNat < 50000) (hx3 : ∀ y, (x3 y).toNat < 50000) (X4 : BufTy.Contents (Elt F) arg4.view.ty)

/-- One trip at a symbolic trip number: the index words being in range, every gather and update lands in range; the pieces written are the witnesses. -/
@[irreducible] def trip0 (k : Fin k0_t1_loop.trips) :
    Σ' (L5 : BufTy.Contents (Elt F) arg5.view.ty → List (View.Piece (Elt F) S50000x128 .f32)),
    { L6 : List (View.Piece (Elt F) S8x128 .f32) // ∀ (f5 : BufTy.Contents (Elt F) arg5.view.ty) (f6 : BufTy.Contents (Elt F) arg6.view.ty),
      Trip0 (F := F) c arg2 arg3 arg4 arg5 arg6 (harg2.unread x2) (harg3.unread x3) X4 f5 f6
      ⊢ wp frame (wpE (defs₀ (F := F)) Variants.none (c : Thread nD τ) none) Set.univ (k0_t1_body (F := F) i arg2 harg2 arg3 harg3 arg4 harg4 arg5 harg5 arg6 harg6 k PUnit.unit)
          (fun _ => Trip0 (F := F) c arg2 arg3 arg4 arg5 arg6 (harg2.unread x2) (harg3.unread x3) X4 (arg5.view.writes (Elt F) f5 (L5 f5)) (arg6.view.writes (Elt F) f6 L6)) } := by
  refine ⟨?_, ?_, fun f5 f6 => ?run⟩
  case run =>
    unfold k0_t1_body
    iintro ⟨H2, H3, H4, H5, H6⟩
    sl_exec (disch := exact chk_of_lt _ (lt_of_word _ _ (by assumption) _ _))
    sl_step
    sl_close

abbrev tripL5 (k : Fin k0_t1_loop.trips) (f5 : BufTy.Contents (Elt F) arg5.view.ty) : List (View.Piece (Elt F) S50000x128 .f32) :=
  (trip0 (F := F) c i arg2 harg2 arg3 harg3 arg4 harg4 arg5 harg5 arg6 harg6 x2 x3 hx2 hx3 X4 k).1 f5

@[irreducible] def pb5Step (G5 : BufTy.Contents (Elt F) arg5.view.ty) (k : ℕ) (prev : List (View.Piece (Elt F) S50000x128 .f32)) : List (View.Piece (Elt F) S50000x128 .f32) :=
  if h : k < k0_t1_loop.trips then
    (tripL5 (F := F) c i arg2 harg2 arg3 harg3 arg4 harg4 arg5 harg5 arg6 harg6 x2 x3 hx2 hx3 X4 ⟨k, h⟩ (arg5.view.writes (Elt F) G5 prev)) ++ prev
  else prev

/-- The pieces of the trips before a trip (last first), each trip's taken at what the earlier ones left over G5. -/
def pb5 (G5 : BufTy.Contents (Elt F) arg5.view.ty) : ℕ → List (View.Piece (Elt F) S50000x128 .f32)
  | 0 => []
  | k + 1 => pb5Step c i arg2 harg2 arg3 harg3 arg4 harg4 arg5 harg5 arg6 harg6 x2 x3 hx2 hx3 X4 G5 k (pb5 G5 k)

theorem pb5_succ (G5 : BufTy.Contents (Elt F) arg5.view.ty) (k : Fin k0_t1_loop.trips) :
    pb5 (F := F) c i arg2 harg2 arg3 harg3 arg4 harg4 arg5 harg5 arg6 harg6 x2 x3 hx2 hx3 X4 G5 (k.val + 1)
      = (tripL5 (F := F) c i arg2 harg2 arg3 harg3 arg4 harg4 arg5 harg5 arg6 harg6 x2 x3 hx2 hx3 X4 k (arg5.view.writes (Elt F) G5 (pb5 (F := F) c i arg2 harg2 arg3 harg3 arg4 harg4 arg5 harg5 arg6 harg6 x2 x3 hx2 hx3 X4 G5 k.val))) ++ (pb5 (F := F) c i arg2 harg2 arg3 harg3 arg4 harg4 arg5 harg5 arg6 harg6 x2 x3 hx2 hx3 X4 G5 k.val) := by
  rw [pb5.eq_2]; unfold pb5Step; exact dif_pos k.isLt

set_option warn.classDefReducibility false in
/-- The loop's invariant before a trip: the output block holds the pieces of the trips before it; the scratch holds anything. -/
@[sl_loop] def loopInv0 (G5 : BufTy.Contents (Elt F) arg5.view.ty) :
    LoopInvTy_k0_t1 (F := F) Unit ℕ (UR sig nD τ) ℕ Variants.none c none Set.univ i arg2 harg2 arg3 harg3 arg4 harg4 arg5 harg5 arg6 harg6 where
  inv k _ := iprop((arg2.view.loc (c : Thread nD τ) ↦[arg2.view.set]{fullShare} (harg2.unread x2)) ∗ (arg3.view.loc (c : Thread nD τ) ↦[arg3.view.set]{fullShare} (harg3.unread x3))
    ∗ (arg4.view.loc (c : Thread nD τ) ↦[arg4.view.set]{fullShare} X4)
    ∗ (∃ f, (arg5.view.loc (c : Thread nD τ) ↦[arg5.view.set]{fullShare} f) ∗ ⌜f = arg5.view.writes (Elt F) G5 (pb5 (F := F) c i arg2 harg2 arg3 harg3 arg4 harg4 arg5 harg5 arg6 harg6 x2 x3 hx2 hx3 X4 G5 k)⌝)
    ∗ (∃ f, arg6.view.loc (c : Thread nD τ) ↦[arg6.view.set]{fullShare} f))
  step k acc := by
    iintro ⟨H2, H3, H4, ⟨%f5, H5, %h5⟩, ⟨%f6, H6⟩⟩
    iapply (wp_wand_r Idealize.ShloMosaic.frame (wpE (defs₀ (F := F)) Variants.none (c : Thread nD τ) none) Set.univ)
    isplitl [H2 H3 H4 H5 H6]
    · iapply ((trip0 (F := F) c i arg2 harg2 arg3 harg3 arg4 harg4 arg5 harg5 arg6 harg6 x2 x3 hx2 hx3 X4 k).2.2 f5 f6)
      unfold Trip0; iframe
    · iintro %_ ⟨H2, H3, H4, H5, H6⟩
      iframe H2 H3 H4
      isplitl [H5]
      · rw [pb5_succ]
        iexists _; iframe H5
        ipureintro; rw [h5, ← View.writes_append]
      · iexists _; iexact H6

/-- What the sixteen trips leave in the output block entered at acc. -/
def ptRun0 (x4 acc : Vec F S50000x128 .f32) : Vec F S50000x128 .f32 :=
  arg5.view.read (Elt F) (arg5.view.writes (Elt F) (harg5.unread acc)
    (pb5 (F := F) c i arg2 harg2 arg3 harg3 arg4 harg4 arg5 harg5 arg6 harg6 x2 x3 hx2 hx3 (harg4.unread x4) (harg5.unread acc) k0_t1_loop.trips))

/-- The body at any point: the trips run over the zero block where the branch is taken, else over what the output block held. -/
theorem sound_kernel0 (x4 x5 : Vec F S50000x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (ptRun0 c i arg2 harg2 arg3 harg3 arg4 harg4 arg5 harg5 arg6 harg6 x2 x3 hx2 hx3 x4 (if cond0_0 i then zeros0 (F := F) else x5))
            ∗ (∃ d, owns (c : Thread nD τ) arg6 fullShare d)) -∗ K ⟨⟩))
      ⊢ wp frame (wpE (defs₀ (F := F)) Variants.none c none) Set.univ (cc0__agg_kernel i arg2 harg2 arg3 harg3 arg4 harg4 arg5 harg5 arg6 harg6) K := by
  simp only [cc0__agg_kernel_eq_skeleton, owns_unread0 harg2, owns_unread0 harg3, owns_unread0 harg4, owns_unread0 harg5]
  unfold cc0__agg_kernel_skel owns ptRun0
  iintro ⟨H2, H3, H4, H5, ⟨%d6, %f6, -, H6⟩, Hk⟩
  by_cases hc0 : cond0_0 i
  · rw [if_pos hc0]
    sl_exec (disch := exact hc0)
    sl_step
    iapply Hk
    iframe H2 H3 H4
    isplitl [H5]
    · rw [View.writes_append, harg5.unread_read, ← harg5.eq_unread (zfill_read arg5 arg5.view.junk inb_S50000x128_S50000x128_0_0 (zeros0 (F := F)))]
      iexact H5
    iexists _, _; isplitr; swap; · iexact H6
    ipureintro; rfl
  · rw [if_neg hc0]
    sl_exec (disch := exact hc0)
    sl_step
    iapply Hk
    iframe H2 H3 H4
    isplitl [H5]
    · rw [harg5.unread_read]; iexact H5
    iexists _, _; isplitr; swap; · iexact H6
    ipureintro; rfl

end

abbrev ms0_0 (t : Fin cfg0.N) : Memref sig .tc .smem S128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S50000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S50000x128 .f32 := win0_3.stage (cfg0.slots t 3)
abbrev hs0_3 (t : Fin cfg0.N) : (ms0_3 t).IsWhole := hstage0_3 ((cfg0.slots t 3).cast nbuf0_3)
abbrev scM0 : Memref sig .tc .vmem S8x128 .f32 := Memref.whole cc0_scratch0

/-- The region's invariant with the kernel's own scratch split off, owned at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

def ptAt0 (hV : InRange0 V) (c : Dev nD) (t : Fin cfg0.N) (acc : Vec F S50000x128 .f32) : Vec F S50000x128 .f32 :=
  ptRun0 c (grid0.coords t) (ms0_0 t) (hs0_0 t) (ms0_1 t) (hs0_1 t) (ms0_2 t) (hs0_2 t) (ms0_3 t) (hs0_3 t) scM0 (Memref.isWhole_whole _)
    (iblk0 V c 0 t) (iblk0 V c 1 t) (iblk0_0_lt V hV c t) (iblk0_1_lt V hV c t) (iblk0 V c 2 t) acc

/-- What the output block holds after each point: the point's run over zeros at the first point of a core's row, else over what the point before left. -/
def outAt0 (hV : InRange0 V) (c : Dev nD) : (n : ℕ) → n < cfg0.N → Vec F S50000x128 .f32
  | 0, hn => ptAt0 V hV c ⟨0, hn⟩ (zeros0 (F := F))
  | n + 1, hn => ptAt0 V hV c ⟨n + 1, hn⟩ (if (n + 1) % 3125 = 0 then zeros0 (F := F) else outAt0 hV c n (Nat.lt_of_succ_lt hn))

theorem outAt0_A (hV : InRange0 V) (c : Dev nD) (t : Fin cfg0.N) (h0 : t.val % 3125 = 0) :
    outAt0 V hV c t.val t.isLt = ptAt0 V hV c t (zeros0 (F := F)) := by
  obtain ⟨n, hn⟩ := t
  cases n with
  | zero => rfl
  | succ n => rw [outAt0]; dsimp only at h0; rw [if_pos h0]

theorem outAt0_B (hV : InRange0 V) (c : Dev nD) (t : Fin cfg0.N) (h0 : ¬t.val % 3125 = 0) :
    outAt0 V hV c t.val t.isLt = ptAt0 V hV c t (outAt0 V hV c (t.val - 1) (Nat.lt_of_le_of_lt (Nat.sub_le _ _) t.isLt)) := by
  obtain ⟨n, hn⟩ := t
  cases n with
  | zero => exact absurd (Nat.zero_mod _) h0
  | succ n => rw [outAt0]; dsimp only at h0; rw [if_neg h0]; rfl

open Classical in
def outs0 (c : Dev nD) (t : Fin cfg0.N) : Vec F S50000x128 .f32 :=
  if h : InRange0 V then outAt0 V h c t.val t.isLt else zeros0 (F := F)

/-- The region's proof data on a core: each input window left at its block, the output window at the accumulation. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outs0 V c t
  Φ _ := Pipeline.ΦA spec0 c
  q _ := fullShare
  owed _ := 0

theorem after0_3 (hV : InRange0 V) (c : Dev nD) (t : Fin cfg0.N) : (dat0 V c).after 3 t = outAt0 V hV c t.val t.isLt :=
  dif_pos hV

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

/-- The accumulation at a point: the point's run over zeros where the body's branch is taken, else over what the output window holds on entry. -/
theorem outAt0_eq (hV : InRange0 V) (c : Dev nD) (t : Fin cfg0.N) (d) :
    outAt0 V hV c t.val t.isLt = ptAt0 V hV c t (if cond0_0 (grid0.coords t) then zeros0 (F := F) else (dat0 V c).before 3 t d) := by
  by_cases h0 : t.val % 3125 = 0
  · rw [if_pos ((hcond0_0 t).mpr h0), outAt0_A V hV c t h0]
  · have hN : t.val < 6250 := lt_of_lt_of_eq t.isLt (show cfg0.N = 6250 from N_0)
    rw [if_neg (mt (hcond0_0 t).mp h0), outAt0_B V hV c t h0, Dat.before_out_kept _ 3 rfl t (by omega)
      (Bool.eq_false_iff.mpr fun h => by have := (flush0_3 _).mp h; dsimp only at this; omega) (fun _ => rfl) (fun _ _ => rfl), after0_3 V hV]

theorem sound_body0 (hV : InRange0 V) (c : Dev nD) (t : Fin cfg0.N) :
    iprop(Pipeline.ΦA spec0 c ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop(Pipeline.ΦA spec0 c ∗ (dat0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare (iblk0 V c 2 t)
        ∗ owns (c : Thread nD τ) (st0_3 t) fullShare ((dat0 V c).after 3 t))) := by
  simp only [before0_0, before0_1, before0_2]
  rw [after0_3 V hV, PhiA0_eq]
  iintro ⟨⟨⟨HS, HR⟩, HP⟩, Ho, ⟨%d0, H0⟩, ⟨%d1, H1⟩, ⟨%d2, H2⟩, ⟨%d3, H3⟩⟩
  rw [outAt0_eq V hV c t d3]
  iapply (sound_kernel0 c (grid0.coords t) _ _ _ _ _ _ _ _ _ _ (iblk0 V c 0 t) (iblk0 V c 1 t)
    (iblk0_0_lt V hV c t) (iblk0_1_lt V hV c t) (iblk0 V c 2 t) _ _)
  iframe H0 H1 H2 H3 HS
  iintro ⟨H0, H1, H2, H3, HS⟩
  iframe HS HR HP Ho H0 H1 H2
  iexact H3

theorem body_obligation0 (hV : InRange0 V) (c : Dev nD) : BodyObligation (dat0 (F := F) V c) (defs₀ (F := F)) Variants.none () Set.univ := fun t => by
  rw [bigSep_W0, bigSep_W0]
  exact sound_body0 V hV c t

end Cert.Kernel.Hand

end
-- ==== Proof.LibView.lean ====
import Idealize.ShloMosaic.Lib.Pipeline.Value

namespace Cert.LibView

open Idealize.ShloMosaic

variable {sig : RefSig} {κ : Kind} {sp : Space} {s : Shape} {e : EltTy} {Val : EltTy → Type}

/-- A store through a rectangle lays its payload over what the earlier stores left. -/
theorem read_writes_cons_overlay (v : View sig κ sp s e) (f : v.ty.Contents Val) (p : View.Piece Val s e)
    (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · rw [View.writes_cons, View.read_slice_write_of_not_mem p.1 _ _ _ (by rwa [Rect.map_emb_univ]),
      Rect.overlay_of_not_mem _ _ _ hy]

/-- A store through the whole of a buffer hides every store before it. -/
theorem read_writes_unit_zero (v : View sig κ sp s e) (f : v.ty.Contents Val) {off : Fin s.rank → ℕ} (h : off = fun _ => 0)
    (inb : ∀ a, off a + s.size a ≤ s.size a) (w : s.Idx → Val e) (L : List (View.Piece Val s e)) :
    v.read Val (v.writes Val f (⟨Rect.unit off s.size inb, w⟩ :: L)) = w := by
  rw [read_writes_cons_overlay]; subst h; funext y
  have e := (Rect.whole s).overlay_emb (v.read Val (v.writes Val f L)) w y
  rwa [Rect.emb_whole_apply] at e

theorem off00 : (![0, 0] : Fin 2 → ℕ) = fun _ => 0 := by
  funext a; fin_cases a <;> rfl

end Cert.LibView
-- ==== Proof.KbR1.lean ====
import proofs.«421496_j55748675502408_4_alg».proof.Proof.Gen.Kernel.Launch
import proofs.«421496_j55748675502408_4_alg».proof.Proof.Gen.Kernel.Skeleton
import proofs.«421496_j55748675502408_4_alg».proof.Proof.Gen.Kernel.Points
import proofs.«421496_j55748675502408_4_alg».proof.Proof.LibView
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen Cert.LibView
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

/-- Along the row-major order of the 2 x 5 grid the body's condition holds at the points that are 0 modulo 5. -/
theorem hcond1_0 : ∀ t : Fin cfg1.N, cond1_0 (grid1.coords t) ↔ t.val % 5 = 0 :=
  (by decide +kernel : ∀ t : Fin grid1.N, cond1_0 (grid1.coords t) ↔ t.val % 5 = 0)

abbrev rA : Rect S5000x128 := Rect.unit (s := S5000x128) ![0, 0] S5000x128.size inb_S5000x128_S5000x128_0_0
abbrev rN : Rect S5000x1 := Rect.unit (s := S5000x1) ![0, 0] S5000x1.size inb_S5000x1_S5000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rR : Rect S8x128 := Rect.unit (s := S8x128) ![0, 0] S1x128.size inb_S8x128_S1x128_0_0

section Body

variable (x0 : Vec F S5000x128 .f32) (x1 : Vec F S5000x128 .f32) (x2 : Vec F S5000x128 .f32) (x3 : Vec F S5000x1 .f32) (x4 : Vec F S128x128 .f32) (x5 : Vec F S1x128 .f32) (x6 : Vec F S128x128 .f32) (x7 : Vec F S1x128 .f32)

def out1_8 : Vec F S5000x128 .f32 :=
  k1_pay3 (View.ld x0 rA) (View.ld x1 rA) (View.ld x3 rN) (View.ld x2 rA) (View.ld x4 rW) (View.ld x5 rB) (View.ld x6 rW) (View.ld x7 rB)

def colsum1 : Vec F S1x128 .f32 :=
  k1_pay4 (View.ld x0 rA) (View.ld x1 rA) (View.ld x3 rN) (View.ld x2 rA) (View.ld x4 rW) (View.ld x5 rB) (View.ld x6 rW) (View.ld x7 rB)

def zero1_9 : Vec F S8x128 .f32 := k1_pay2 (F := F)

def acc1_9 (xo : Vec F S8x128 .f32) : Vec F S8x128 .f32 :=
  rR.overlay xo (k1_pay1 (colsum1 x0 x1 x2 x3 x4 x5 x6 x7) (View.ld xo rR))

/-- The loads read whole buffers, so both payloads are payloads of the buffers' contents themselves. -/
theorem pay1_eq : out1_8 x0 x1 x2 x3 x4 x5 x6 x7 = k1_pay3 x0 x1 x3 x2 x4 x5 x6 x7 ∧ colsum1 x0 x1 x2 x3 x4 x5 x6 x7 = k1_pay4 x0 x1 x3 x2 x4 x5 x6 x7 := by
  unfold out1_8 colsum1
  simp only [View.ld_unit_zero (S := S5000x128) off00, View.ld_unit_zero (S := S5000x1) off00, View.ld_unit_zero (S := S128x128) off00,
    View.ld_unit_zero (S := S1x128) off00, and_self]

theorem acc1_9_row (xo : Vec F S8x128 .f32) (j : rR.shape.Idx) :
    acc1_9 x0 x1 x2 x3 x4 x5 x6 x7 xo (rR.emb j) = k1_pay1 (k1_pay4 x0 x1 x3 x2 x4 x5 x6 x7) (View.ld xo rR) j := by
  unfold acc1_9; rw [(pay1_eq x0 x1 x2 x3 x4 x5 x6 x7).2]; exact Rect.overlay_emb _ _ _ j

/-- The body on whole buffers: inputs kept, the layer's output stored, the sums stepped over zeros under the condition and over what was there otherwise. -/
theorem sound_kernel1 (c : Dev nD) (E : Set ℕ) (i : grid1.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S8x128 .f32) (harg11 : arg11.IsWhole)
    (d : Vec F S5000x128 .f32) (xo : Vec F S8x128 .f32) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare d ∗ owns c arg11 fullShare xo
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare (out1_8 x0 x1 x2 x3 x4 x5 x6 x7) ∗ owns c arg11 fullShare (acc1_9 x0 x1 x2 x3 x4 x5 x6 x7 (if cond1_0 i then zero1_9 else xo))) -∗ K ⟨⟩))
      ⊢ wp frame (wpE (defs₀ (F := F)) Variants.none c none) E (cc1__dense_sum_kernel i arg2 harg2 arg3 harg3 arg4 harg4 arg5 harg5 arg6 harg6 arg7 harg7 arg8 harg8 arg9 harg9 arg10 harg10 arg11 harg11) K := by
  simp only [cc1__dense_sum_kernel_eq_skeleton]; unfold cc1__dense_sum_kernel_skel owns
  by_cases hc : cond1_0 i
  all_goals
    first | rw [if_pos hc] | rw [if_neg hc]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, ⟨%f9, %hf9, H9⟩, Hk⟩
    subst hf0 hf1 hf2 hf3 hf4 hf5 hf6 hf7 hf9
    sl_exec (disch := exact hc)
    sl_step
    iapply Hk
    isplitl [H0]; rotate_left; isplitl [H1]; rotate_left; isplitl [H2]; rotate_left; isplitl [H3]; rotate_left; isplitl [H4]; rotate_left
    isplitl [H5]; rotate_left; isplitl [H6]; rotate_left; isplitl [H7]; rotate_left; isplitl [H8]; rotate_left
    all_goals (iexists _; isplitr; swap; iassumption; ipureintro; try with_reducible rfl)
    · refine (read_writes_cons_overlay _ _ _ _).trans ?_
      first
      | (sl_unfold_run_names
         rw [read_writes_unit_zero _ _ off00, View.readCov_eq_canon', View.canon_unit_zero (S := S8x128) off00]
         rfl)
      | rfl
    · exact read_writes_unit_zero _ _ off00 _ _ _

end Body

variable (V : (c : Dev nD) → (b : Ref sig .tc) → Buf (Elt F) ((c : Thread nD τ).loc b))

/-- Window w's block at point t, read off the array's contents on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One step of the running sums at point t over contents xo. -/
def accAt1_9 (c : Dev nD) (t : Fin cfg1.N) (xo : Vec F S8x128 .f32) : Vec F S8x128 .f32 :=
  acc1_9 (iblk1 V c 0 t) (iblk1 V c 1 t) (iblk1 V c 2 t) (iblk1 V c 3 t) (iblk1 V c 4 t) (iblk1 V c 5 t) (iblk1 V c 6 t) (iblk1 V c 7 t) xo

/-- The sums after the body at position n: one step over the zeros if n is 0 modulo 5, else over what position n - 1 left. -/
def outsAt1_9 (c : Dev nD) : (n : ℕ) → n < cfg1.N → Vec F S8x128 .f32
  | 0, hn => accAt1_9 V c ⟨0, hn⟩ zero1_9
  | n + 1, hn => accAt1_9 V c ⟨n + 1, hn⟩ (if (n + 1) % 5 = 0 then zero1_9 else outsAt1_9 c n (Nat.lt_of_succ_lt hn))

/-- The region's proof data on core c: arrays as found on entry; each input keeps its block, the outputs get the layer's output and the running sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => outsAt1_9 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := rfl

theorem after1_8_eq (c : Dev nD) (t : Fin cfg1.N) :
    (dat1 V c).after 8 t = k1_pay3 (iblk1 V c 0 t) (iblk1 V c 1 t) (iblk1 V c 3 t) (iblk1 V c 2 t) (iblk1 V c 4 t) (iblk1 V c 5 t) (iblk1 V c 6 t) (iblk1 V c 7 t) :=
  (pay1_eq (iblk1 V c 0 t) (iblk1 V c 1 t) (iblk1 V c 2 t) (iblk1 V c 3 t) (iblk1 V c 4 t) (iblk1 V c 5 t) (iblk1 V c 6 t) (iblk1 V c 7 t)).1

/-- The recursion of the running sums, read off the proof data. -/
theorem after1_9_rec (c : Dev nD) (t : Fin cfg1.N) :
    (dat1 V c).after 9 t = accAt1_9 V c t (if t.val % 5 = 0 then zero1_9
      else (dat1 V c).after 9 ⟨t.val - 1, Nat.lt_of_le_of_lt (Nat.sub_le _ _) t.isLt⟩) := by
  obtain ⟨n, hn⟩ := t
  cases n <;> rfl

theorem after1_9_reset (c : Dev nD) (t : Fin cfg1.N) (h0 : t.val % 5 = 0) :
    (dat1 V c).after 9 t = accAt1_9 V c t zero1_9 :=
  (after1_9_rec V c t).trans (by rw [if_pos h0])

theorem after1_9_step (c : Dev nD) (t : Fin cfg1.N) (h0 : ¬t.val % 5 = 0) :
    (dat1 V c).after 9 t = accAt1_9 V c t ((dat1 V c).after 9 ⟨t.val - 1, Nat.lt_of_le_of_lt (Nat.sub_le _ _) t.isLt⟩) :=
  (after1_9_rec V c t).trans (by rw [if_neg h0])

/-- The body only reads the inputs, so each input's buffer holds its block at every point. -/
theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) := by
  refine ⟨?_, ?_, ?_, ?_, ?_, ?_, ?_, ?_⟩ <;> intro d <;>
    refine (Dat.before_in_eq_fetched _ _ ?_ ?_ ?_ ?_ t d).trans ?_ <;> intros <;> rfl

/-- One step of the running sums: over the zeros where the condition holds, over what the buffer held otherwise. -/
theorem after1_9_eq (c : Dev nD) (t : Fin cfg1.N) (d) :
    (dat1 V c).after 9 t = accAt1_9 V c t (if cond1_0 (grid1.coords t) then zero1_9 else (dat1 V c).before 9 t d) := by
  by_cases h0 : t.val % 5 = 0
  · rw [if_pos ((hcond1_0 t).mpr h0)]; exact after1_9_reset V c t h0
  · have hN : t.val < 10 := lt_of_lt_of_eq t.isLt (show cfg1.N = 10 from N_1)
    rw [if_neg (mt (hcond1_0 t).mp h0), Dat.before_out_kept _ 9 rfl t (by omega)
      (Bool.eq_false_iff.mpr fun h => by have := (flush1_9 _).mp h; dsimp only at this; omega) (fun _ => rfl) (fun _ _ => rfl)]
    exact after1_9_step V c t h0

theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) fun _ =>
      iprop((dat1 V c).Φ t.castSucc ∗ (dat1 V c).owesAt () t.castSucc
        ∗ owns c (st1_0 t) fullShare (iblk1 V c 0 t)
        ∗ owns c (st1_1 t) fullShare (iblk1 V c 1 t)
        ∗ owns c (st1_2 t) fullShare (iblk1 V c 2 t)
        ∗ owns c (st1_3 t) fullShare (iblk1 V c 3 t)
        ∗ owns c (st1_4 t) fullShare (iblk1 V c 4 t)
        ∗ owns c (st1_5 t) fullShare (iblk1 V c 5 t)
        ∗ owns c (st1_6 t) fullShare (iblk1 V c 6 t)
        ∗ owns c (st1_7 t) fullShare (iblk1 V c 7 t)
        ∗ owns c (st1_8 t) fullShare (out1_8 (iblk1 V c 0 t) (iblk1 V c 1 t) (iblk1 V c 2 t) (iblk1 V c 3 t) (iblk1 V c 4 t) (iblk1 V c 5 t) (iblk1 V c 6 t) (iblk1 V c 7 t))
        ∗ owns c (st1_9 t) fullShare ((dat1 V c).after 9 t))
  dsimp only
  obtain ⟨e0, e1, e2, e3, e4, e5, e6, e7⟩ := before1_in V c t
  simp only [e0, e1, e2, e3, e4, e5, e6, e7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [after1_9_eq V c t d9, accAt1_9]
  iapply sound_kernel1 (iblk1 V c 0 t) (iblk1 V c 1 t) (iblk1 V c 2 t) (iblk1 V c 3 t) (iblk1 V c 4 t) (iblk1 V c 5 t) (iblk1 V c 6 t) (iblk1 V c 7 t) c Set.univ (grid1.coords t)
  iframe
  iintro ⟨H0, H1, H2, H3, H4, H5, H6, H7, H8, H9⟩
  iframe

end Cert.Kernel.Hand

end
-- ==== Proof.KbR2.lean ====
import proofs.«421496_j55748675502408_4_alg».proof.Proof.Gen.Kernel.Launch
import proofs.«421496_j55748675502408_4_alg».proof.Proof.Gen.Kernel.Skeleton
import proofs.«421496_j55748675502408_4_alg».proof.Proof.Gen.Kernel.Points
import proofs.«421496_j55748675502408_4_alg».proof.Proof.LibView
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibView

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's conditional is taken where the second grid coordinate is zero, that is, at the points that start a row. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev row2 : Rect S8x128 := Rect.unit (s := S8x128) ![0, 0] S1x128.size inb_S8x128_S1x128_0_0

def upd2 (x0 : Vec F S5000x128 .f32) (x1 : Vec F S1x128 .f32) (xo : Vec F S8x128 .f32) : Vec F S8x128 .f32 :=
  row2.overlay xo (k2_pay2 x0 x1 (View.ld xo row2))

abbrev zero2 : Vec F S8x128 .f32 := k2_pay1 (F := F)

/-- The body adds the point's column sums to row 0 of the accumulator's block, which it zeroes first where the conditional is taken. -/
theorem sound_kernel2 (c : Dev nD) (E : Set ℕ) (i : grid2.Coords) (arg2 : Memref sig .tc .vmem S5000x128 .f32) (harg2 : arg2.IsWhole)
    (arg3 : Memref sig .tc .vmem S1x128 .f32) (harg3 : arg3.IsWhole) (arg4 : Memref sig .tc .vmem S8x128 .f32) (harg4 : arg4.IsWhole)
    (x0 : Vec F S5000x128 .f32) (x1 : Vec F S1x128 .f32) (xo : Vec F S8x128 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (upd2 x0 x1 (if cond2_0 i then zero2 else xo))) -∗ K ⟨⟩))
      ⊢ wp frame (wpE (defs₀ (F := F)) Variants.none c none) E (cc2__var_kernel i arg2 harg2 arg3 harg3 arg4 harg4) K := by
  simp only [cc2__var_kernel_eq_skeleton]; unfold cc2__var_kernel_skel
  rw [owns_eq_rep (c : Thread nD τ) arg2, owns_eq_rep (c : Thread nD τ) arg3]
  unfold owns
  iintro ⟨H0, H1, ⟨%f2, %hf2, H2⟩, Hk⟩
  subst hf2
  by_cases hc0 : cond2_0 i
  all_goals
    first | rw [if_pos hc0] | rw [if_neg hc0]
    sl_exec (disch := exact hc0)
    sl_step
    iapply Hk
    iframe H0 H1
    iexists _; iframe H2
    ipureintro
    sl_unfold_run_names
    rw [read_writes_cons_overlay]
    simp only [read_writes_unit_zero (s := S8x128) _ _ off00, View.readAt_eq_ld, View.read_rep, View.ld_unit_zero (S := S5000x128) off00,
      View.ld_unit_zero (S := S1x128) off00, View.readCov_eq_canon', View.canon_unit_zero (S := S8x128) off00]
    rfl

def outsAt2 (c : Dev nD) : (n : ℕ) → n < cfg2.N → Vec F S8x128 .f32
  | 0, hn => upd2 (iblk2 V c 0 ⟨0, hn⟩) (iblk2 V c 1 ⟨0, hn⟩) (zero2 (F := F))
  | n + 1, hn =>
    if (n + 1) % 5 = 0 then upd2 (iblk2 V c 0 ⟨n + 1, hn⟩) (iblk2 V c 1 ⟨n + 1, hn⟩) (zero2 (F := F))
    else upd2 (iblk2 V c 0 ⟨n + 1, hn⟩) (iblk2 V c 1 ⟨n + 1, hn⟩) (outsAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2_reset (c : Dev nD) (t : Fin cfg2.N) (h0 : t.val % 5 = 0) :
    (dat2 V c).after 2 t = upd2 (iblk2 V c 0 t) (iblk2 V c 1 t) (zero2 (F := F)) := by
  obtain ⟨n, hn⟩ := t
  cases n with
  | zero => rfl
  | succ n => exact if_pos h0

theorem after2_2_step (c : Dev nD) (t : Fin cfg2.N) (h0 : ¬t.val % 5 = 0) :
    (dat2 V c).after 2 t
      = upd2 (iblk2 V c 0 t) (iblk2 V c 1 t) ((dat2 V c).after 2 ⟨t.val - 1, Nat.lt_of_le_of_lt (Nat.sub_le _ _) t.isLt⟩) := by
  obtain ⟨n, hn⟩ := t
  cases n with
  | zero => exact absurd (Nat.zero_mod _) h0
  | succ n => exact if_neg h0

/-- The body leaves each input as it finds it. -/
theorem kept2 (c : Dev nD) (t : Fin cfg2.N) (w : Fin cfg2.W) (hw : (cfg2.win w).isOut = false) (d) :
    (dat2 V c).before w t d = (dat2 V c).after w t := by
  fin_cases w
  on_goal 3 => exact absurd hw (by decide)
  all_goals exact (Dat.before_in_eq_fetched _ _ rfl (fun _ => rfl) (fun _ _ _ => rfl) (fun _ => rfl) t d).trans rfl

theorem before2_2 (c : Dev nD) (t : Fin cfg2.N) (h0 : ¬t.val % 5 = 0) (d) :
    (dat2 V c).before 2 t d = (dat2 V c).after 2 ⟨t.val - 1, Nat.lt_of_le_of_lt (Nat.sub_le _ _) t.isLt⟩ := by
  have hN : t.val < 10 := lt_of_lt_of_eq t.isLt (show cfg2.N = 10 from N_2)
  exact Dat.before_out_kept _ 2 rfl t (by omega) (Bool.eq_false_iff.mpr fun h => by have := (flush2_2 _).mp h; dsimp only at this; omega)
    (fun _ => rfl) (fun _ _ => rfl) d

/-- So at every point the accumulator's block is the body's update of what the body finds there. -/
theorem after2_2_eq (c : Dev nD) (t : Fin cfg2.N) (d) : (dat2 V c).after 2 t
    = upd2 ((dat2 V c).after 0 t) ((dat2 V c).after 1 t) (if cond2_0 (grid2.coords t) then zero2 else (dat2 V c).before 2 t d) := by
  by_cases h0 : t.val % 5 = 0
  · rw [if_pos ((hcond2_0 t).mpr h0)]; exact after2_2_reset V c t h0
  · rw [if_neg (mt (hcond2_0 t).mp h0), before2_2 V c t h0]; exact after2_2_step V c t h0

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [kept2 V c t 0 rfl, kept2 V c t 1 rfl]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [after2_2_eq V c t d2]
  iapply (sound_kernel2 c Set.univ (grid2.coords t) _ _ _ _ _ _ ((dat2 V c).after 0 t) ((dat2 V c).after 1 t) ((dat2 V c).before 2 t d2) _)
  iframe
  iintro ⟨H0, H1, H2⟩
  iframe

end Cert.Kernel.Hand

end
-- ==== Proof.KbR3.lean ====
import proofs.«421496_j55748675502408_4_alg».proof.Proof.Gen.Kernel.Launch
import proofs.«421496_j55748675502408_4_alg».proof.Proof.Gen.Kernel.Skeleton
import proofs.«421496_j55748675502408_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_5 (x0 : Vec F S5000x128 .f32) (x1 x2 x3 x4 : Vec F S1x128 .f32) : Vec F S5000x128 .f32 :=
  View.canon [⟨r3_0, k3_pay1 (View.ld x0 r3_0) (View.ld x1 r3_1) (View.ld x2 r3_1) (View.ld x3 r3_1) (View.ld x4 r3_1)⟩]

/-- The body reads its five inputs and stores once, through the whole output block. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  rw [owns_eq_rep (c : Thread nD τ) arg1, owns_eq_rep (c : Thread nD τ) arg2, owns_eq_rep (c : Thread nD τ) arg3,
    owns_eq_rep (c : Thread nD τ) arg4, owns_eq_rep (c : Thread nD τ) arg5]
  unfold owns
  iintro ⟨H0, H1, H2, H3, H4, ⟨%d5, %f5, -, H5⟩, Hk⟩
  sl_exec
  sl_step
  iapply Hk
  iframe H0 H1 H2 H3 H4
  iexists _; iframe H5
  ipureintro
  simp only [View.readAt_eq_ld, View.read_rep]
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- The body leaves each input as it finds it. -/
theorem kept3 (c : Dev nD) (t : Fin cfg3.N) (w : Fin cfg3.W) (hw : (cfg3.win w).isOut = false) (d) :
    (dat3 V c).before w t d = (dat3 V c).after w t := by
  fin_cases w
  on_goal 6 => exact absurd hw (by decide)
  all_goals exact (Dat.before_in_eq_fetched _ _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [kept3 V c t 0 rfl, kept3 V c t 1 rfl, kept3 V c t 2 rfl, kept3 V c t 3 rfl, kept3 V c t 4 rfl]
  rw [show (dat3 V c).Φ t.succ = (dat3 V c).Φ t.castSucc from rfl,
    show (dat3 V c).owesAt () t.succ = (dat3 V c).owesAt () t.castSucc from rfl,
    show (dat3 V c).after 5 t = out3_5 ((dat3 V c).after 0 t) ((dat3 V c).after 1 t) ((dat3 V c).after 2 t) ((dat3 V c).after 3 t)
      ((dat3 V c).after 4 t) from by dsimp only [dat3]]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ ((dat3 V c).after 0 t) ((dat3 V c).after 1 t)
    ((dat3 V c).after 2 t) ((dat3 V c).after 3 t) ((dat3 V c).after 4 t) _)
  iframe
  isplitl [H5]; · iexists _; iexact H5
  iintro ⟨H0, H1, H2, H3, H4, H5⟩
  iframe

end Cert.Kernel.Hand

end
-- ==== Proof.KbShare1.lean ====
import proofs.«421496_j55748675502408_4_alg».proof.Proof.KbR1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)
  (W W' : (b : Ref sig .tc) → Buf (Elt F) ((c : Thread nD τ).loc b))
  (Fa : (w : Fin cfg1.W) → Buf (Elt F) ((cfg1.win w).arr.view.loc (c.tc : Thread nD τ)))

theorem unscopedBufs1_split :
    (unscopedBufs c W : sProp 𝕄) = iprop(Pipeline.arrBufs spec1 c W ∗ Pipeline.unscopedRest spec1 c W) :=
  Pipeline.unscopedBufs_split₀ cfgs 1 winFacts₀1.arr_unscoped c W

/-- The ten windows' arrays are nine buffers: the first two windows hold the two halves of one array's full share. -/
theorem arrays1_eq (hF : ∀ w, Fa w = W (Pipeline.arrRef spec1 w)) :
    (dat1 V c).arrays Fa = (Pipeline.arrBufs spec1 c W : sProp 𝕄) := by
  unfold Dat.arrays
  rw [bigSep_congr fun w _ => show _ = (((c.tc : Thread nD τ).loc (Pipeline.arrRef spec1 w)) ↦{(dat1 V c).share w} W (Pipeline.arrRef spec1 w) : sProp 𝕄) by
      rw [(arr_whole1 w).set_eq_univ, hF], bigSep_W1]
  refine Eq.trans ?_ (bigSep_eq_bigSepL_of_eq [main_v18, main_arg0, main_v21, main_arg1, main_v19, main_arg3, main_v20, main_v22_0, main_v22_1]
    (by decide) (by decide) _).symm
  exact (Entails.antisymm sep_assoc sep_assoc').symm.trans (congrArg (fun X : sProp 𝕄 => iprop(X ∗ _))
    (Entails.antisymm (pointsTo_share (PosShare.mem_left_op_right fullShare)).1 (pointsTo_share (PosShare.mem_left_op_right fullShare)).2).symm)

theorem arrays1_of_unscopedBufs (hF : ∀ w, Fa w = W (Pipeline.arrRef spec1 w)) :
    (unscopedBufs c W : sProp 𝕄) ⊢ iprop((dat1 V c).arrays Fa ∗ Pipeline.unscopedRest spec1 c W) := by
  rw [unscopedBufs1_split c W, arrays1_eq V c W Fa hF]

/-- The rest mentions only buffers outside the arrays', and there the two valuations agree. -/
theorem unscopedBufs_of_arrays1 (hF : ∀ w, Fa w = W' (Pipeline.arrRef spec1 w))
    (hrest : ∀ b, b ∉ Finset.univ.image (Pipeline.arrRef spec1) → W' b = W b) :
    iprop((dat1 V c).arrays Fa ∗ Pipeline.unscopedRest spec1 c W) ⊢ (unscopedBufs c W' : sProp 𝕄) := by
  rw [unscopedBufs1_split c W', arrays1_eq V c W' Fa hF]
  refine sep_mono .rfl (Entails.of_eq ?_)
  unfold Pipeline.unscopedRest
  exact bigSep_congr fun b hb => by rw [hrest b (Finset.mem_sdiff.mp hb).2]

end Cert.Kernel.Hand

end
-- ==== Proof.KbClamp.lean ====
import proofs.«421496_j55748675502408_4_alg».proof.Proof.KbFold
import proofs.«421496_j55748675502408_4_alg».proof.Proof.KbR0
import Idealize.ShloMosaic.Lib.StableHlo.Run
import Idealize.ShloMosaic.Lib.WordArith

noncomputable section

namespace Cert.Kernel.Hand

open Cert.Kernel Cert.Kernel.Gen
open Idealize.ShloMosaic Idealize.ShloMosaic.TcCoe
open Idealize.SL Idealize.SL.Sem

variable {F : FTy → Type} [FloatOps F]

/-- A word clamped to [0, 49999] by the signed maximum and minimum reads, unsigned, below 50000. -/
theorem clamp_word_lt (w : BitVec 32) : (IntOp.minsi 49999#32 (IntOp.maxsi 0#32 w)).toNat < 50000 := by
  have := WordArith.toNat_maxsi_zero w; have := BitVec.toInt_eq_toNat_cond w; have := w.isLt
  rw [WordArith.toNat_minsi_of_lt _ _ (by decide) (by omega)]
  exact (min_le_left _ _).trans_lt (by decide)

variable (m : (ℓ : Loc nD τ sig) → Buf (Elt F) ℓ)

abbrev clampArr (x : IVec S800000 32) : IVec S800000 32 :=
  minsi (broadcastInDim S800000 ![] bcast_S_S800000 (constantI S_ 32 49999#32))
    (maxsi (broadcastInDim S800000 ![] bcast_S_S800000 (constantI S_ 32 0#32)) x)

/-- At the region's entry the source endpoints are still the clamp of their argument: no later host stretch writes them. -/
theorem Vin0_main_v0 (c : Dev nD) :
    (Vin0 m c main_v0 : IVec S800000 32) = clampArr (m (c, Proc.devRef .tc main_arg7)) :=
  (V5_of m c main_v0 (by decide)).trans <| (V4_of m c main_v0 (by decide)).trans <| (V3_of m c main_v0 (by decide)).trans <| by
    show StableHlo.after hostOps0_1 _ (Proc.devRef .tc main_v0) = _
    after_results
    rfl

theorem Vin0_main_v1 (c : Dev nD) :
    (Vin0 m c main_v1 : IVec S800000 32) = clampArr (W3 m c (Proc.devRef .tc main_arg8)) :=
  (V5_of m c main_v1 (by decide)).trans <| by
    show StableHlo.after hostOps0_3 _ (Proc.devRef .tc main_v1) = _
    after_results
    rfl

theorem inRange5 : InRange0 (Vin0 m) := fun c i =>
  ⟨(congrArg BitVec.toNat (congrFun (Vin0_main_v0 m c) i)).trans_lt (clamp_word_lt _),
   (congrArg BitVec.toNat (congrFun (Vin0_main_v1 m c) i)).trans_lt (clamp_word_lt _)⟩

end Cert.Kernel.Hand

end
-- ==== Proof.KbRun.lean ====
import proofs.«421496_j55748675502408_4_alg».proof.Proof.KbFold
import proofs.«421496_j55748675502408_4_alg».proof.Proof.KbR0
import proofs.«421496_j55748675502408_4_alg».proof.Proof.KbR1
import proofs.«421496_j55748675502408_4_alg».proof.Proof.KbR2
import proofs.«421496_j55748675502408_4_alg».proof.Proof.KbR3
import proofs.«421496_j55748675502408_4_alg».proof.Proof.KbShare1
import proofs.«421496_j55748675502408_4_alg».proof.Proof.KbClamp
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W6 (c : Dev nD) : Valuation τ sig (Elt F) :=
  Pipeline.withArrays spec0 c (W5 m c) fun w => (dat0 (Vin0 m) c).arrAt w cfg0.N
theorem W6_arr (c : Dev nD) (w : Fin cfg0.W) :
    W6 m c (Proc.devRef .tc (Pipeline.arrRef spec0 w)) = (dat0 (Vin0 m) c).arrAt w cfg0.N :=
  Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) :=
  Pipeline.withArrays_of_ne spec0 c _ _ b hb

abbrev W7 (c : Dev nD) : Valuation τ sig (Elt F) := StableHlo.after hostOps1 (W6 m c)
abbrev Vin1 : (c : Dev nD) → (b : Ref sig .tc) → Buf (Elt F) ((c : Thread nD τ).loc b) := fun c b => W7 m c b

/-- Two of the second region's windows read one array, so its two results are set one by one. -/
def W8 (c : Dev nD) : Valuation τ sig (Elt F) :=
  Function.update (Function.update (W7 m c) (Proc.devRef .tc main_v22_0) ((dat1 (Vin1 m) c).arrAt 8 cfg1.N))
    (Proc.devRef .tc main_v22_1) ((dat1 (Vin1 m) c).arrAt 9 cfg1.N)
theorem W8_of_ne (c : Dev nD) (b : Ref sig .tc) (h0 : b ≠ main_v22_0) (h1 : b ≠ main_v22_1) :
    W8 m c (Proc.devRef .tc b) = W7 m c (Proc.devRef .tc b) := by
  unfold W8
  rw [Function.update_of_ne (StableHlo.devRef_ne_of_ne h1), Function.update_of_ne (StableHlo.devRef_ne_of_ne h0)]
theorem W8_v22_0 (c : Dev nD) : W8 m c (Proc.devRef .tc main_v22_0) = (dat1 (Vin1 m) c).arrAt 8 cfg1.N := by
  unfold W8
  rw [Function.update_of_ne (StableHlo.devRef_ne_of_ne (by decide : main_v22_0 ≠ main_v22_1)), Function.update_self]
theorem W8_v22_1 (c : Dev nD) : W8 m c (Proc.devRef .tc main_v22_1) = (dat1 (Vin1 m) c).arrAt 9 cfg1.N := by
  unfold W8; rw [Function.update_self]
abbrev Vout1 : (c : Dev nD) → (b : Ref sig .tc) → Buf (Elt F) ((c : Thread nD τ).loc b) := fun c b => W8 m c b
/-- A window is one of the two results, or an input whose array the region leaves as it found it. -/
theorem hF1 (c : Dev nD) (w : Fin cfg1.W) : (dat1 (Vin1 m) c).arrAt w cfg1.N = Vout1 m c (Pipeline.arrRef spec1 w) := by
  obtain rfl | rfl | ⟨hi, h0, h1⟩ : w = 8 ∨ w = 9 ∨ (cfg1.win w).isOut = false ∧ Pipeline.arrRef spec1 w ≠ main_v22_0
      ∧ Pipeline.arrRef spec1 w ≠ main_v22_1 := by revert w; decide
  · exact (W8_v22_0 m c).symm
  · exact (W8_v22_1 m c).symm
  · exact ((dat1 (Vin1 m) c).arrAt_in w hi _).trans ((A_eq1 (Vin1 m) c w).trans (W8_of_ne m c _ h0 h1).symm)
theorem hrest1 (c : Dev nD) : ∀ b, b ∉ Finset.univ.image (Pipeline.arrRef spec1) → Vout1 m c b = Vin1 m c b :=
  fun b hb => W8_of_ne m c b (fun h => hb (h ▸ Finset.mem_image.mpr ⟨8, Finset.mem_univ _, rfl⟩))
    (fun h => hb (h ▸ Finset.mem_image.mpr ⟨9, Finset.mem_univ _, rfl⟩))

abbrev W9 (c : Dev nD) : Valuation τ sig (Elt F) := StableHlo.after hostOps2 (W8 m c)
abbrev Vin2 : (c : Dev nD) → (b : Ref sig .tc) → Buf (Elt F) ((c : Thread nD τ).loc b) := fun c b => W9 m c b

def W10 (c : Dev nD) : Valuation τ sig (Elt F) :=
  Pipeline.withArrays spec2 c (W9 m c) fun w => (dat2 (Vin2 m) c).arrAt w cfg2.N
theorem W10_arr (c : Dev nD) (w : Fin cfg2.W) :
    W10 m c (Proc.devRef .tc (Pipeline.arrRef spec2 w)) = (dat2 (Vin2 m) c).arrAt w cfg2.N :=
  Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) :=
  Pipeline.withArrays_of_ne spec2 c _ _ b hb

abbrev W11 (c : Dev nD) : Valuation τ sig (Elt F) := StableHlo.after hostOps3 (W10 m c)
abbrev Vin3 : (c : Dev nD) → (b : Ref sig .tc) → Buf (Elt F) ((c : Thread nD τ).loc b) := fun c b => W11 m c b

def W12 (c : Dev nD) : Valuation τ sig (Elt F) :=
  Pipeline.withArrays spec3 c (W11 m c) fun w => (dat3 (Vin3 m) c).arrAt w cfg3.N
theorem W12_arr (c : Dev nD) (w : Fin cfg3.W) :
    W12 m c (Proc.devRef .tc (Pipeline.arrRef spec3 w)) = (dat3 (Vin3 m) c).arrAt w cfg3.N :=
  Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) :=
  Pipeline.withArrays_of_ne spec3 c _ _ b hb

/-- A reference that no host stretch so far writes and no region's window so far names still holds its launch contents. -/
theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) :
    W5 m c (Proc.devRef .tc r) = m ((c : Thread nD τ).loc r) :=
  (V5_of m c r h4).trans <| (V4_of m c r h3).trans <| (V3_of m c r h2).trans <| (V2_of m c r h1).trans (V1_of m c r h0)

theorem W6_launch (c : Dev nD) (r : Ref sig .tc) (hr0 : ∀ w, Pipeline.arrRef spec0 w ≠ r) (h0 : r ∉ hostOps0_W)
    (h1 : r ∉ hostOps0_1_W) (h2 : r ∉ hostOps0_2_W) (h3 : r ∉ hostOps0_3_W) (h4 : r ∉ hostOps0_4_W) :
    W6 m c (Proc.devRef .tc r) = m ((c : Thread nD τ).loc r) :=
  (W6_of_ne m c r hr0).trans (W5_launch m c r h0 h1 h2 h3 h4)

theorem W7_launch (c : Dev nD) (r : Ref sig .tc) (hh1 : r ∉ hostOps1_W) (hr0 : ∀ w, Pipeline.arrRef spec0 w ≠ r)
    (h0 : r ∉ hostOps0_W) (h1 : r ∉ hostOps0_1_W) (h2 : r ∉ hostOps0_2_W) (h3 : r ∉ hostOps0_3_W) (h4 : r ∉ hostOps0_4_W) :
    W7 m c (Proc.devRef .tc r) = m ((c : Thread nD τ).loc r) :=
  (StableHlo.after_of_writes_sub hostOps1 _ hostOps1_writes hh1).trans (W6_launch m c r hr0 h0 h1 h2 h3 h4)

theorem W10_launch (c : Dev nD) (r : Ref sig .tc) (hr2 : ∀ w, Pipeline.arrRef spec2 w ≠ r) (hh2 : r ∉ hostOps2_W)
    (hr1a : r ≠ main_v22_0) (hr1b : r ≠ main_v22_1) (hh1 : r ∉ hostOps1_W) (hr0 : ∀ w, Pipeline.arrRef spec0 w ≠ r)
    (h0 : r ∉ hostOps0_W) (h1 : r ∉ hostOps0_1_W) (h2 : r ∉ hostOps0_2_W) (h3 : r ∉ hostOps0_3_W) (h4 : r ∉ hostOps0_4_W) :
    W10 m c (Proc.devRef .tc r) = m ((c : Thread nD τ).loc r) :=
  (W10_of_ne m c r hr2).trans <| (StableHlo.after_of_writes_sub hostOps2 _ hostOps2_writes hh2).trans <|
    (W8_of_ne m c r hr1a hr1b).trans (W7_launch m c r hh1 hr0 h0 h1 h2 h3 h4)

/-- No host stretch writes `r` and no region's window names it. -/
abbrev Untouched (r : Ref sig .tc) : Prop :=
  (∀ w, Pipeline.arrRef spec3 w ≠ r) ∧ r ∉ hostOps3_W ∧ (∀ w, Pipeline.arrRef spec2 w ≠ r) ∧ r ∉ hostOps2_W
    ∧ r ≠ main_v22_0 ∧ r ≠ main_v22_1 ∧ r ∉ hostOps1_W ∧ (∀ w, Pipeline.arrRef spec0 w ≠ r)
    ∧ r ∉ hostOps0_W ∧ r ∉ hostOps0_1_W ∧ r ∉ hostOps0_2_W ∧ r ∉ hostOps0_3_W ∧ r ∉ hostOps0_4_W

theorem W12_launch (c : Dev nD) (r : Ref sig .tc) (h : Untouched r) :
    W12 m c (Proc.devRef .tc r) = m ((c : Thread nD τ).loc r) :=
  let ⟨hr3, hh3, hr2, hh2, hr1a, hr1b, hh1, hr0, h0, h1, h2, h3, h4⟩ := h
  (W12_of_ne m c r hr3).trans <| (StableHlo.after_of_writes_sub hostOps3 _ hostOps3_writes hh3).trans
    (W10_launch m c r hr2 hh2 hr1a hr1b hh1 hr0 h0 h1 h2 h3 h4)

def pdats : (p : Fin 4) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

set_option backward.isDefEq.respectTransparency.types false in
/-- Region `p` as a segment from the contents `Wi` to the contents `Wo`, given how its arrays leave and rejoin the other buffers. -/
def regOf (p : Fin 4) (win : Pipeline.WinFacts₀ (cfgs p).spec) (hpos : ∀ w : Fin (cfgs p).W, 0 < ((cfgs p).spec w).block.numel)
    (hst : ∀ (w : Fin (cfgs p).W) (s : Fin ((cfgs p).spec w).nbuf), (((cfgs p).spec w).stage s).IsWhole)
    (hbody : ∀ c, Pipeline.BodyObligationLoose (pdats m p c) defs₀ 𝒱₀ () Set.univ)
    (h0 : ∀ c t, (pdats m p c).owed t = 0) (hrec : ∀ c, (pdats m p c).recorded 0 = Set.univ)
    (hΦ : ∀ c t, (pdats m p c).Φ t = Pipeline.ΦA (cfgs p).spec c) (Wi Wo : Dev nD → Valuation τ sig (Elt F))
    (hsplit : ∀ c, (unscopedBufs c (fun b => Wi c b) : sProp 𝕄)
      ⊢ iprop((pdats m p c).arrays ((pdats m p c).arrAt · 0) ∗ Pipeline.unscopedRest (cfgs p).spec c fun b => Wi c b))
    (hjoin : ∀ c, iprop((pdats m p c).arrays ((pdats m p c).arrAt · (cfgs p).N) ∗ Pipeline.unscopedRest (cfgs p).spec c fun b => Wi c b)
      ⊢ (unscopedBufs c (fun b => Wo c b) : sProp 𝕄)) :
    Pipeline.RegionSeg (pcfgs (F := F)) adm (pdats m) () defs₀ 𝒱₀ L lv p where
  win := win
  block_pos := hpos
  stage_whole := hst
  K := PEmpty
  osem k := k.elim
  ho := Pipeline.OwnSemFacts.none _
  hbody := hbody
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    have hs := hsplit c
    rw [Pipeline.unscopedBufs_held] at hs
    rw [Pipeline.ownSems0_none]
    unfold Pipeline.Dat.owesAt Pipeline.owesWithin Pipeline.Dat.bound Pipeline.prefHeld
    rw [h0 c, hrec c, show (Finset.univ : Finset (Fin 0)) = ∅ from rfl, BI.bigSep_empty]
    iintro ⟨⟨Hub, Hp, %W, HO⟩, -, -⟩
    ihave H := hs $$ Hub
    icases H with ⟨Ha, Hrest⟩
    imodintro
    isplitl [Ha]; · iexact Ha
    isplitr; · iempintro
    isplitl [HO]
    · iexists W; isplitr; · ipureintro; exact fun _ _ => Or.inl trivial
      iexact HO
    iframe
  hin c := by
    rw [hΦ c 0]; unfold Pipeline.ΦA
    iintro ⟨Hp, -, Hr⟩
    iframe
  hout c := by
    rw [Pipeline.ownSems0_none, hΦ c (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [h0 c]
    iintro ⟨Ha, ⟨%W, -, HO⟩, HY, Hrest⟩
    imodintro
    isplitl [Ha Hrest]
    · iapply hj; iframe
    isplitl [HY]; · iexact HY
    iexists W; iexact HO

set_option backward.isDefEq.respectTransparency.types false in
/-- A region whose windows name distinct arrays: those end at what its write-backs leave, every other buffer as entered. -/
def regArr (p : Fin 4) (lf : Pipeline.LaunchFacts (nD := nD) (τ := τ) cfgs p)
    (hbody : ∀ c, Pipeline.BodyObligationLoose (pdats m p c) defs₀ 𝒱₀ () Set.univ)
    (h0 : ∀ c t, (pdats m p c).owed t = 0) (hrec : ∀ c, (pdats m p c).recorded 0 = Set.univ)
    (hΦ : ∀ c t, (pdats m p c).Φ t = Pipeline.ΦA (cfgs p).spec c) (hq : ∀ c w, (pdats m p c).q w = fullShare)
    (Wi : Dev nD → Valuation τ sig (Elt F)) (hA : ∀ c w, (pdats m p c).A w = Wi c (Pipeline.arrRef (cfgs p).spec w)) :
    Pipeline.RegionSeg (pcfgs (F := F)) adm (pdats m) () defs₀ 𝒱₀ L lv p :=
  regOf m p lf.win.to₀ lf.block_pos lf.stage_whole hbody h0 hrec hΦ Wi
    (fun c => Pipeline.withArrays (cfgs p).spec c (Wi c) fun w => (pdats m p c).arrAt w (cfgs p).N)
    (fun c => Pipeline.arrays_of_unscopedBufs (pcfgs (F := F)) adm (pdats m) lf.win lf.arr_whole c
      ((pdats m p c).share_full (hq c)) _ (hA c))
    (fun c => Pipeline.unscopedBufs_of_arrays (pcfgs (F := F)) adm (Ix := Unit) (Name := ℕ) (U := UR sig nD τ) (Lvl := ℕ)
      lf.win lf.arr_whole c (pdats m) ((pdats m p c).share_full (hq c)) _ _ _
      (fun w => (Pipeline.withArrays_arr (cfgs p).spec lf.win.arr_inj c (Wi c) (fun w => (pdats m p c).arrAt w (cfgs p).N) w).symm)
      fun b hb => Pipeline.withArrays_of_ne (cfgs p).spec c _ _ b fun w e => hb (Finset.mem_image.mpr ⟨w, Finset.mem_univ _, e⟩))

def reg0 : Pipeline.RegionSeg (pcfgs (F := F)) adm (pdats m) () defs₀ 𝒱₀ L lv 0 :=
  regArr m 0 launch0 (fun c => (body_obligation0 (Vin0 m) (inRange5 m) c).loose) (fun _ _ => rfl) (fun _ => rfl)
    (fun _ _ => rfl) (fun _ _ => rfl) (W5 m) fun _ _ => rfl

/-- Two of this region's windows name one array, so its arrays leave and rejoin the other buffers by their own two lemmas. -/
def reg1 : Pipeline.RegionSeg (pcfgs (F := F)) adm (pdats m) () defs₀ 𝒱₀ L lv 1 :=
  regOf m 1 winFacts₀1 block_pos1 stage_whole1 (fun c => (body_obligation1 (Vin1 m) c).loose)
    (fun _ _ => rfl) (fun _ => rfl) (fun _ _ => rfl) (W7 m) (W8 m)
    (fun c => arrays1_of_unscopedBufs (Vin1 m) c (Vin1 m c) ((pdats m 1 c).arrAt · 0) fun _ => rfl)
    (fun c => unscopedBufs_of_arrays1 (Vin1 m) c (Vin1 m c) (Vout1 m c) ((pdats m 1 c).arrAt · cfg1.N) (hF1 m c) (hrest1 m c))

def reg2 : Pipeline.RegionSeg (pcfgs (F := F)) adm (pdats m) () defs₀ 𝒱₀ L lv 2 :=
  regArr m 2 launch2 (fun c => (body_obligation2 (Vin2 m) c).loose) (fun _ _ => rfl) (fun _ => rfl)
    (fun _ _ => rfl) (fun _ _ => rfl) (W9 m) fun _ _ => rfl

def reg3 : Pipeline.RegionSeg (pcfgs (F := F)) adm (pdats m) () defs₀ 𝒱₀ L lv 3 :=
  regArr m 3 launch3 (fun c => (body_obligation3 (Vin3 m) c).loose) (fun _ _ => rfl) (fun _ => rfl)
    (fun _ _ => rfl) (fun _ _ => rfl) (W11 m) fun _ _ => rfl

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      iframe)
    (hQ := fun s h c => h c)

theorem run_result : θ_run defs (onTc (τ := τ) (main (F := F))) ⟨m, fun _ => 0, ρ⟩ (fun r => ∀ c : Dev nD,
      r.2.mem ((c.tc : Thread nD τ).loc main_v46) = (dat3 (Vin3 m) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have arg (b : Ref sig .tc) (hs : ¬ (Proc.devRef .tc b : DevRef τ sig).isScoped) (hb : Untouched b) :
        r.2.mem ((c.tc : Thread nD τ).loc b) = m ((c.tc : Thread nD τ).loc b) :=
      (h c _ (mem_uc b hs)).trans (W12_launch m c b hb)
    ⟨(h c _ (mem_uc main_v46 (by decide))).trans (W12_arr m c 5),
     arg main_arg0 (by decide) (by decide), arg main_arg1 (by decide) (by decide), arg main_arg2 (by decide) (by decide),
     arg main_arg3 (by decide) (by decide), arg main_arg4 (by decide) (by decide), arg main_arg5 (by decide) (by decide),
     arg main_arg6 (by decide) (by decide), arg main_arg7 (by decide) (by decide), arg main_arg8 (by decide) (by decide)⟩) (run_all m ρ)

end Cert.Kernel.Hand

end
-- ==== Proof.KiFold.lean ====
import proofs.«421496_j55748675502408_4_alg».proof.Proof.Gen.KernelIdeal.Launch
import proofs.«421496_j55748675502408_4_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev W2 (c : Dev nD) : Valuation τ sig (Elt F) := StableHlo.after hostOps0_1 (W1 m c)

abbrev W3 (c : Dev nD) : Valuation τ sig (Elt F) := StableHlo.after hostOps0_2 (W2 m c)

abbrev W4 (c : Dev nD) : Valuation τ sig (Elt F) := StableHlo.after hostOps0_3 (W3 m c)

abbrev W5 (c : Dev nD) : Valuation τ sig (Elt F) := StableHlo.after hostOps0_4 (W4 m c)

abbrev Vin0 : (c : Dev nD) → (b : Ref sig .tc) → Buf (Elt F) ((c : Thread nD τ).loc b) := fun c b => W5 m c b

end Cert.KernelIdeal.Hand

end
-- ==== Proof.KiR0.lean ====
import proofs.«421496_j55748675502408_4_alg».proof.Proof.Gen.KernelIdeal.Launch
import proofs.«421496_j55748675502408_4_alg».proof.Proof.Gen.KernelIdeal.Skeleton
import proofs.«421496_j55748675502408_4_alg».proof.Proof.Gen.KernelIdeal.Points
import proofs.«421496_j55748675502408_4_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def InRange0 : Prop := ∀ (c : Dev nD) (i : S800000.Idx), (V c main_v0 i).toNat < 50000 ∧ (V c main_v1 i).toNat < 50000

theorem iblk0_0_lt (hV : InRange0 V) (c : Dev nD) (t : Fin cfg0.N) (y : S128.Idx) : (iblk0 V c 0 t y).toNat < 50000 :=
  (hV c _).1
theorem iblk0_1_lt (hV : InRange0 V) (c : Dev nD) (t : Fin cfg0.N) (y : S128.Idx) : (iblk0 V c 1 t y).toNat < 50000 :=
  (hV c _).2

/-- A word below 50000 names a whole row of the (50000,128) arrays. -/
theorem chk_of_lt (v : BitVec 32) (h : v.toNat < 50000) :
    ∀ a, (![(Scalar.indexCast v : Index).toNat, 0] : Fin 2 → Nat) a + S1x128.size a ≤ S50000x128.size a :=
  Fin.forall_fin_two.2 ⟨h, Nat.le_refl _⟩

/-- A word loaded from a whole memref is an entry of what the memref reads as. -/
theorem lt_of_word {sp : Space} {m : Memref sig .tc sp S128 .i32} (h : m.IsWhole) (X : Vec F S128 .i32) (hX : ∀ y, (X y).toNat < 50000)
    (B : LoadRect S128) (x : B.shape.Idx) : (View.readAt (Elt F) m.view B (h.unread X) x).toNat < 50000 := by
  rw [View.readAt_apply, h.read_unread]; exact hX _

abbrev Trip0 (c : Dev nD) (arg2 : Memref sig .tc .smem S128 .i32) (arg3 : Memref sig .tc .smem S128 .i32) (arg4 : Memref sig .tc .vmem S50000x128 .f32) (arg5 : Memref sig .tc .vmem S50000x128 .f32) (arg6 : Memref sig .tc .vmem S8x128 .f32)
    (X2 : BufTy.Contents (Elt F) arg2.view.ty) (X3 : BufTy.Contents (Elt F) arg3.view.ty) (X4 : BufTy.Contents (Elt F) arg4.view.ty)
    (f5 : BufTy.Contents (Elt F) arg5.view.ty) (f6 : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} f5)
    ∗ (arg6.view.loc (c : Thread nD τ) ↦[arg6.view.set]{fullShare} f6))

abbrev cond0_0 (i : grid0.Coords) : Prop := (Scalar.cmpi .ne (Scalar.extui (Scalar.cmpi .eq (BitVec.ofNat 32 (i 1).val) 0#32)) 0#32) = 1#1

/-- The body's branch is taken exactly at the first point of each core's row of the grid. -/
theorem hcond0_0 : ∀ t : Fin cfg0.N, cond0_0 (grid0.coords t) ↔ t.val % 3125 = 0 :=
  (by decide +kernel : ∀ t : Fin grid0.N, cond0_0 (grid0.coords t) ↔ t.val % 3125 = 0)

def zeros0 : Vec F S50000x128 .f32 := k0_pay1 (F := F)

/-- A store of a whole block reads back as the block stored. -/
theorem zfill_read {sp : Space} (m : Memref sig .tc sp S50000x128 .f32) (f : BufTy.Contents (Elt F) m.view.ty)
    (inb : ∀ a, (![0, 0] : Fin 2 → ℕ) a + S50000x128.size a ≤ S50000x128.size a)
    (w : (Rect.unit (s := S50000x128) ![0, 0] S50000x128.size inb).shape.Idx → Elt F .f32) :
    m.view.read (Elt F) (m.view.writes (Elt F) f [⟨Rect.unit (s := S50000x128) ![0, 0] S50000x128.size inb, w⟩]) = w := by
  funext y
  have hy : (Rect.unit (s := S50000x128) ![0, 0] S50000x128.size inb).emb y = y := funext fun a => Fin.ext (by
    show (![0, 0] : Fin 2 → ℕ) a + 1 * (y a).val = (y a).val
    fin_cases a <;> simp)
  have h := View.read_writes_cons_emb m.view f (Rect.unit (s := S50000x128) ![0, 0] S50000x128.size inb) w [] y
  rwa [hy] at h

/-- A whole memref owned at x is its elements held at the contents that read x. -/
theorem owns_unread0 {sp : Space} {sh : Shape} {e : EltTy} {m : Memref sig .tc sp sh e} (h : m.IsWhole) (c : Dev nD) (x : sh.Idx → Elt F e) :
    (owns (c : Thread nD τ) m fullShare x : sProp 𝕄) = (m.view.loc (c : Thread nD τ) ↦[m.view.set]{fullShare} h.unread x) := by
  rw [owns_eq_rep, h.eq_unread (View.read_rep _ _)]

section
variable (c : Dev nD) (i : grid0.Coords) (arg2 : Memref sig .tc .smem S128 .i32) (harg2 : arg2.IsWhole) (arg3 : Memref sig .tc .smem S128 .i32) (harg3 : arg3.IsWhole) (arg4 : Memref sig .tc .vmem S50000x128 .f32) (harg4 : arg4.IsWhole) (arg5 : Memref sig .tc .vmem S50000x128 .f32) (harg5 : arg5.IsWhole) (arg6 : Memref sig .tc .vmem S8x128 .f32) (harg6 : arg6.IsWhole)
  (x2 x3 : Vec F S128 .i32) (hx2 : ∀ y, (x2 y).toNat < 50000) (hx3 : ∀ y, (x3 y).toNat < 50000) (X4 : BufTy.Contents (Elt F) arg4.view.ty)

/-- One trip at a symbolic trip number: the index words being in range, every gather and update lands in range; the pieces written are the witnesses. -/
@[irreducible] def trip0 (k : Fin k0_t1_loop.trips) :
    Σ' (L5 : BufTy.Contents (Elt F) arg5.view.ty → List (View.Piece (Elt F) S50000x128 .f32)),
    { L6 : List (View.Piece (Elt F) S8x128 .f32) // ∀ (f5 : BufTy.Contents (Elt F) arg5.view.ty) (f6 : BufTy.Contents (Elt F) arg6.view.ty),
      Trip0 (F := F) c arg2 arg3 arg4 arg5 arg6 (harg2.unread x2) (harg3.unread x3) X4 f5 f6
      ⊢ wp frame (wpE (defs₀ (F := F)) Variants.none (c : Thread nD τ) none) Set.univ (k0_t1_body (F := F) i arg2 harg2 arg3 harg3 arg4 harg4 arg5 harg5 arg6 harg6 k PUnit.unit)
          (fun _ => Trip0 (F := F) c arg2 arg3 arg4 arg5 arg6 (harg2.unread x2) (harg3.unread x3) X4 (arg5.view.writes (Elt F) f5 (L5 f5)) (arg6.view.writes (Elt F) f6 L6)) } := by
  refine ⟨?_, ?_, fun f5 f6 => ?run⟩
  case run =>
    unfold k0_t1_body
    iintro ⟨H2, H3, H4, H5, H6⟩
    sl_exec (disch := exact chk_of_lt _ (lt_of_word _ _ (by assumption) _ _))
    sl_step
    sl_close

abbrev tripL5 (k : Fin k0_t1_loop.trips) (f5 : BufTy.Contents (Elt F) arg5.view.ty) : List (View.Piece (Elt F) S50000x128 .f32) :=
  (trip0 (F := F) c i arg2 harg2 arg3 harg3 arg4 harg4 arg5 harg5 arg6 harg6 x2 x3 hx2 hx3 X4 k).1 f5

@[irreducible] def pb5Step (G5 : BufTy.Contents (Elt F) arg5.view.ty) (k : ℕ) (prev : List (View.Piece (Elt F) S50000x128 .f32)) : List (View.Piece (Elt F) S50000x128 .f32) :=
  if h : k < k0_t1_loop.trips then
    (tripL5 (F := F) c i arg2 harg2 arg3 harg3 arg4 harg4 arg5 harg5 arg6 harg6 x2 x3 hx2 hx3 X4 ⟨k, h⟩ (arg5.view.writes (Elt F) G5 prev)) ++ prev
  else prev

/-- The pieces of the trips before a trip (last first), each trip's taken at what the earlier ones left over G5. -/
def pb5 (G5 : BufTy.Contents (Elt F) arg5.view.ty) : ℕ → List (View.Piece (Elt F) S50000x128 .f32)
  | 0 => []
  | k + 1 => pb5Step c i arg2 harg2 arg3 harg3 arg4 harg4 arg5 harg5 arg6 harg6 x2 x3 hx2 hx3 X4 G5 k (pb5 G5 k)

theorem pb5_succ (G5 : BufTy.Contents (Elt F) arg5.view.ty) (k : Fin k0_t1_loop.trips) :
    pb5 (F := F) c i arg2 harg2 arg3 harg3 arg4 harg4 arg5 harg5 arg6 harg6 x2 x3 hx2 hx3 X4 G5 (k.val + 1)
      = (tripL5 (F := F) c i arg2 harg2 arg3 harg3 arg4 harg4 arg5 harg5 arg6 harg6 x2 x3 hx2 hx3 X4 k (arg5.view.writes (Elt F) G5 (pb5 (F := F) c i arg2 harg2 arg3 harg3 arg4 harg4 arg5 harg5 arg6 harg6 x2 x3 hx2 hx3 X4 G5 k.val))) ++ (pb5 (F := F) c i arg2 harg2 arg3 harg3 arg4 harg4 arg5 harg5 arg6 harg6 x2 x3 hx2 hx3 X4 G5 k.val) := by
  rw [pb5.eq_2]; unfold pb5Step; exact dif_pos k.isLt

set_option warn.classDefReducibility false in
/-- The loop's invariant before a trip: the output block holds the pieces of the trips before it; the scratch holds anything. -/
@[sl_loop] def loopInv0 (G5 : BufTy.Contents (Elt F) arg5.view.ty) :
    LoopInvTy_k0_t1 (F := F) Unit ℕ (UR sig nD τ) ℕ Variants.none c none Set.univ i arg2 harg2 arg3 harg3 arg4 harg4 arg5 harg5 arg6 harg6 where
  inv k _ := iprop((arg2.view.loc (c : Thread nD τ) ↦[arg2.view.set]{fullShare} (harg2.unread x2)) ∗ (arg3.view.loc (c : Thread nD τ) ↦[arg3.view.set]{fullShare} (harg3.unread x3))
    ∗ (arg4.view.loc (c : Thread nD τ) ↦[arg4.view.set]{fullShare} X4)
    ∗ (∃ f, (arg5.view.loc (c : Thread nD τ) ↦[arg5.view.set]{fullShare} f) ∗ ⌜f = arg5.view.writes (Elt F) G5 (pb5 (F := F) c i arg2 harg2 arg3 harg3 arg4 harg4 arg5 harg5 arg6 harg6 x2 x3 hx2 hx3 X4 G5 k)⌝)
    ∗ (∃ f, arg6.view.loc (c : Thread nD τ) ↦[arg6.view.set]{fullShare} f))
  step k acc := by
    iintro ⟨H2, H3, H4, ⟨%f5, H5, %h5⟩, ⟨%f6, H6⟩⟩
    iapply (wp_wand_r Idealize.ShloMosaic.frame (wpE (defs₀ (F := F)) Variants.none (c : Thread nD τ) none) Set.univ)
    isplitl [H2 H3 H4 H5 H6]
    · iapply ((trip0 (F := F) c i arg2 harg2 arg3 harg3 arg4 harg4 arg5 harg5 arg6 harg6 x2 x3 hx2 hx3 X4 k).2.2 f5 f6)
      unfold Trip0; iframe
    · iintro %_ ⟨H2, H3, H4, H5, H6⟩
      iframe H2 H3 H4
      isplitl [H5]
      · rw [pb5_succ]
        iexists _; iframe H5
        ipureintro; rw [h5, ← View.writes_append]
      · iexists _; iexact H6

/-- What the sixteen trips leave in the output block entered at acc. -/
def ptRun0 (x4 acc : Vec F S50000x128 .f32) : Vec F S50000x128 .f32 :=
  arg5.view.read (Elt F) (arg5.view.writes (Elt F) (harg5.unread acc)
    (pb5 (F := F) c i arg2 harg2 arg3 harg3 arg4 harg4 arg5 harg5 arg6 harg6 x2 x3 hx2 hx3 (harg4.unread x4) (harg5.unread acc) k0_t1_loop.trips))

/-- The body at any point: the trips run over the zero block where the branch is taken, else over what the output block held. -/
theorem sound_kernel0 (x4 x5 : Vec F S50000x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (ptRun0 c i arg2 harg2 arg3 harg3 arg4 harg4 arg5 harg5 arg6 harg6 x2 x3 hx2 hx3 x4 (if cond0_0 i then zeros0 (F := F) else x5))
            ∗ (∃ d, owns (c : Thread nD τ) arg6 fullShare d)) -∗ K ⟨⟩))
      ⊢ wp frame (wpE (defs₀ (F := F)) Variants.none c none) Set.univ (cc0__agg_kernel i arg2 harg2 arg3 harg3 arg4 harg4 arg5 harg5 arg6 harg6) K := by
  simp only [cc0__agg_kernel_eq_skeleton, owns_unread0 harg2, owns_unread0 harg3, owns_unread0 harg4, owns_unread0 harg5]
  unfold cc0__agg_kernel_skel owns ptRun0
  iintro ⟨H2, H3, H4, H5, ⟨%d6, %f6, -, H6⟩, Hk⟩
  by_cases hc0 : cond0_0 i
  · rw [if_pos hc0]
    sl_exec (disch := exact hc0)
    sl_step
    iapply Hk
    iframe H2 H3 H4
    isplitl [H5]
    · rw [View.writes_append, harg5.unread_read, ← harg5.eq_unread (zfill_read arg5 arg5.view.junk inb_S50000x128_S50000x128_0_0 (zeros0 (F := F)))]
      iexact H5
    iexists _, _; isplitr; swap; · iexact H6
    ipureintro; rfl
  · rw [if_neg hc0]
    sl_exec (disch := exact hc0)
    sl_step
    iapply Hk
    iframe H2 H3 H4
    isplitl [H5]
    · rw [harg5.unread_read]; iexact H5
    iexists _, _; isplitr; swap; · iexact H6
    ipureintro; rfl

end

abbrev ms0_0 (t : Fin cfg0.N) : Memref sig .tc .smem S128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S50000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S50000x128 .f32 := win0_3.stage (cfg0.slots t 3)
abbrev hs0_3 (t : Fin cfg0.N) : (ms0_3 t).IsWhole := hstage0_3 ((cfg0.slots t 3).cast nbuf0_3)
abbrev scM0 : Memref sig .tc .vmem S8x128 .f32 := Memref.whole cc0_scratch0

/-- The region's invariant with the kernel's own scratch split off, owned at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

def ptAt0 (hV : InRange0 V) (c : Dev nD) (t : Fin cfg0.N) (acc : Vec F S50000x128 .f32) : Vec F S50000x128 .f32 :=
  ptRun0 c (grid0.coords t) (ms0_0 t) (hs0_0 t) (ms0_1 t) (hs0_1 t) (ms0_2 t) (hs0_2 t) (ms0_3 t) (hs0_3 t) scM0 (Memref.isWhole_whole _)
    (iblk0 V c 0 t) (iblk0 V c 1 t) (iblk0_0_lt V hV c t) (iblk0_1_lt V hV c t) (iblk0 V c 2 t) acc

/-- What the output block holds after each point: the point's run over zeros at the first point of a core's row, else over what the point before left. -/
def outAt0 (hV : InRange0 V) (c : Dev nD) : (n : ℕ) → n < cfg0.N → Vec F S50000x128 .f32
  | 0, hn => ptAt0 V hV c ⟨0, hn⟩ (zeros0 (F := F))
  | n + 1, hn => ptAt0 V hV c ⟨n + 1, hn⟩ (if (n + 1) % 3125 = 0 then zeros0 (F := F) else outAt0 hV c n (Nat.lt_of_succ_lt hn))

theorem outAt0_A (hV : InRange0 V) (c : Dev nD) (t : Fin cfg0.N) (h0 : t.val % 3125 = 0) :
    outAt0 V hV c t.val t.isLt = ptAt0 V hV c t (zeros0 (F := F)) := by
  obtain ⟨n, hn⟩ := t
  cases n with
  | zero => rfl
  | succ n => rw [outAt0]; dsimp only at h0; rw [if_pos h0]

theorem outAt0_B (hV : InRange0 V) (c : Dev nD) (t : Fin cfg0.N) (h0 : ¬t.val % 3125 = 0) :
    outAt0 V hV c t.val t.isLt = ptAt0 V hV c t (outAt0 V hV c (t.val - 1) (Nat.lt_of_le_of_lt (Nat.sub_le _ _) t.isLt)) := by
  obtain ⟨n, hn⟩ := t
  cases n with
  | zero => exact absurd (Nat.zero_mod _) h0
  | succ n => rw [outAt0]; dsimp only at h0; rw [if_neg h0]; rfl

open Classical in
def outs0 (c : Dev nD) (t : Fin cfg0.N) : Vec F S50000x128 .f32 :=
  if h : InRange0 V then outAt0 V h c t.val t.isLt else zeros0 (F := F)

/-- The region's proof data on a core: each input window left at its block, the output window at the accumulation. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outs0 V c t
  Φ _ := Pipeline.ΦA spec0 c
  q _ := fullShare
  owed _ := 0

theorem after0_3 (hV : InRange0 V) (c : Dev nD) (t : Fin cfg0.N) : (dat0 V c).after 3 t = outAt0 V hV c t.val t.isLt :=
  dif_pos hV

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

/-- The accumulation at a point: the point's run over zeros where the body's branch is taken, else over what the output window holds on entry. -/
theorem outAt0_eq (hV : InRange0 V) (c : Dev nD) (t : Fin cfg0.N) (d) :
    outAt0 V hV c t.val t.isLt = ptAt0 V hV c t (if cond0_0 (grid0.coords t) then zeros0 (F := F) else (dat0 V c).before 3 t d) := by
  by_cases h0 : t.val % 3125 = 0
  · rw [if_pos ((hcond0_0 t).mpr h0), outAt0_A V hV c t h0]
  · have hN : t.val < 6250 := lt_of_lt_of_eq t.isLt (show cfg0.N = 6250 from N_0)
    rw [if_neg (mt (hcond0_0 t).mp h0), outAt0_B V hV c t h0, Dat.before_out_kept _ 3 rfl t (by omega)
      (Bool.eq_false_iff.mpr fun h => by have := (flush0_3 _).mp h; dsimp only at this; omega) (fun _ => rfl) (fun _ _ => rfl), after0_3 V hV]

theorem sound_body0 (hV : InRange0 V) (c : Dev nD) (t : Fin cfg0.N) :
    iprop(Pipeline.ΦA spec0 c ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop(Pipeline.ΦA spec0 c ∗ (dat0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare (iblk0 V c 2 t)
        ∗ owns (c : Thread nD τ) (st0_3 t) fullShare ((dat0 V c).after 3 t))) := by
  simp only [before0_0, before0_1, before0_2]
  rw [after0_3 V hV, PhiA0_eq]
  iintro ⟨⟨⟨HS, HR⟩, HP⟩, Ho, ⟨%d0, H0⟩, ⟨%d1, H1⟩, ⟨%d2, H2⟩, ⟨%d3, H3⟩⟩
  rw [outAt0_eq V hV c t d3]
  iapply (sound_kernel0 c (grid0.coords t) _ _ _ _ _ _ _ _ _ _ (iblk0 V c 0 t) (iblk0 V c 1 t)
    (iblk0_0_lt V hV c t) (iblk0_1_lt V hV c t) (iblk0 V c 2 t) _ _)
  iframe H0 H1 H2 H3 HS
  iintro ⟨H0, H1, H2, H3, HS⟩
  iframe HS HR HP Ho H0 H1 H2
  iexact H3

theorem body_obligation0 (hV : InRange0 V) (c : Dev nD) : BodyObligation (dat0 (F := F) V c) (defs₀ (F := F)) Variants.none () Set.univ := fun t => by
  rw [bigSep_W0, bigSep_W0]
  exact sound_body0 V hV c t

end Cert.KernelIdeal.Hand

end
-- ==== Proof.KiR1.lean ====
import proofs.«421496_j55748675502408_4_alg».proof.Proof.Gen.KernelIdeal.Launch
import proofs.«421496_j55748675502408_4_alg».proof.Proof.Gen.KernelIdeal.Skeleton
import proofs.«421496_j55748675502408_4_alg».proof.Proof.Gen.KernelIdeal.Points
import proofs.«421496_j55748675502408_4_alg».proof.Proof.LibView
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen Cert.LibView
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

/-- Along the row-major order of the 2 x 5 grid the body's condition holds at the points that are 0 modulo 5. -/
theorem hcond1_0 : ∀ t : Fin cfg1.N, cond1_0 (grid1.coords t) ↔ t.val % 5 = 0 :=
  (by decide +kernel : ∀ t : Fin grid1.N, cond1_0 (grid1.coords t) ↔ t.val % 5 = 0)

abbrev rA : Rect S5000x128 := Rect.unit (s := S5000x128) ![0, 0] S5000x128.size inb_S5000x128_S5000x128_0_0
abbrev rN : Rect S5000x1 := Rect.unit (s := S5000x1) ![0, 0] S5000x1.size inb_S5000x1_S5000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rR : Rect S8x128 := Rect.unit (s := S8x128) ![0, 0] S1x128.size inb_S8x128_S1x128_0_0

section Body

variable (x0 : Vec F S5000x128 .f32) (x1 : Vec F S5000x128 .f32) (x2 : Vec F S5000x128 .f32) (x3 : Vec F S5000x1 .f32) (x4 : Vec F S128x128 .f32) (x5 : Vec F S1x128 .f32) (x6 : Vec F S128x128 .f32) (x7 : Vec F S1x128 .f32)

def out1_8 : Vec F S5000x128 .f32 :=
  k1_pay3 (View.ld x0 rA) (View.ld x1 rA) (View.ld x3 rN) (View.ld x2 rA) (View.ld x4 rW) (View.ld x5 rB) (View.ld x6 rW) (View.ld x7 rB)

def colsum1 : Vec F S1x128 .f32 :=
  k1_pay4 (View.ld x0 rA) (View.ld x1 rA) (View.ld x3 rN) (View.ld x2 rA) (View.ld x4 rW) (View.ld x5 rB) (View.ld x6 rW) (View.ld x7 rB)

def zero1_9 : Vec F S8x128 .f32 := k1_pay2 (F := F)

def acc1_9 (xo : Vec F S8x128 .f32) : Vec F S8x128 .f32 :=
  rR.overlay xo (k1_pay1 (colsum1 x0 x1 x2 x3 x4 x5 x6 x7) (View.ld xo rR))

/-- The loads read whole buffers, so both payloads are payloads of the buffers' contents themselves. -/
theorem pay1_eq : out1_8 x0 x1 x2 x3 x4 x5 x6 x7 = k1_pay3 x0 x1 x3 x2 x4 x5 x6 x7 ∧ colsum1 x0 x1 x2 x3 x4 x5 x6 x7 = k1_pay4 x0 x1 x3 x2 x4 x5 x6 x7 := by
  unfold out1_8 colsum1
  simp only [View.ld_unit_zero (S := S5000x128) off00, View.ld_unit_zero (S := S5000x1) off00, View.ld_unit_zero (S := S128x128) off00,
    View.ld_unit_zero (S := S1x128) off00, and_self]

theorem acc1_9_row (xo : Vec F S8x128 .f32) (j : rR.shape.Idx) :
    acc1_9 x0 x1 x2 x3 x4 x5 x6 x7 xo (rR.emb j) = k1_pay1 (k1_pay4 x0 x1 x3 x2 x4 x5 x6 x7) (View.ld xo rR) j := by
  unfold acc1_9; rw [(pay1_eq x0 x1 x2 x3 x4 x5 x6 x7).2]; exact Rect.overlay_emb _ _ _ j

/-- The body on whole buffers: inputs kept, the layer's output stored, the sums stepped over zeros under the condition and over what was there otherwise. -/
theorem sound_kernel1 (c : Dev nD) (E : Set ℕ) (i : grid1.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S8x128 .f32) (harg11 : arg11.IsWhole)
    (d : Vec F S5000x128 .f32) (xo : Vec F S8x128 .f32) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare d ∗ owns c arg11 fullShare xo
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare (out1_8 x0 x1 x2 x3 x4 x5 x6 x7) ∗ owns c arg11 fullShare (acc1_9 x0 x1 x2 x3 x4 x5 x6 x7 (if cond1_0 i then zero1_9 else xo))) -∗ K ⟨⟩))
      ⊢ wp frame (wpE (defs₀ (F := F)) Variants.none c none) E (cc1__dense_sum_kernel i arg2 harg2 arg3 harg3 arg4 harg4 arg5 harg5 arg6 harg6 arg7 harg7 arg8 harg8 arg9 harg9 arg10 harg10 arg11 harg11) K := by
  simp only [cc1__dense_sum_kernel_eq_skeleton]; unfold cc1__dense_sum_kernel_skel owns
  by_cases hc : cond1_0 i
  all_goals
    first | rw [if_pos hc] | rw [if_neg hc]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, ⟨%f9, %hf9, H9⟩, Hk⟩
    subst hf0 hf1 hf2 hf3 hf4 hf5 hf6 hf7 hf9
    sl_exec (disch := exact hc)
    sl_step
    iapply Hk
    isplitl [H0]; rotate_left; isplitl [H1]; rotate_left; isplitl [H2]; rotate_left; isplitl [H3]; rotate_left; isplitl [H4]; rotate_left
    isplitl [H5]; rotate_left; isplitl [H6]; rotate_left; isplitl [H7]; rotate_left; isplitl [H8]; rotate_left
    all_goals (iexists _; isplitr; swap; iassumption; ipureintro; try with_reducible rfl)
    · refine (read_writes_cons_overlay _ _ _ _).trans ?_
      first
      | (sl_unfold_run_names
         rw [read_writes_unit_zero _ _ off00, View.readCov_eq_canon', View.canon_unit_zero (S := S8x128) off00]
         rfl)
      | rfl
    · exact read_writes_unit_zero _ _ off00 _ _ _

end Body

variable (V : (c : Dev nD) → (b : Ref sig .tc) → Buf (Elt F) ((c : Thread nD τ).loc b))

/-- Window w's block at point t, read off the array's contents on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One step of the running sums at point t over contents xo. -/
def accAt1_9 (c : Dev nD) (t : Fin cfg1.N) (xo : Vec F S8x128 .f32) : Vec F S8x128 .f32 :=
  acc1_9 (iblk1 V c 0 t) (iblk1 V c 1 t) (iblk1 V c 2 t) (iblk1 V c 3 t) (iblk1 V c 4 t) (iblk1 V c 5 t) (iblk1 V c 6 t) (iblk1 V c 7 t) xo

/-- The sums after the body at position n: one step over the zeros if n is 0 modulo 5, else over what position n - 1 left. -/
def outsAt1_9 (c : Dev nD) : (n : ℕ) → n < cfg1.N → Vec F S8x128 .f32
  | 0, hn => accAt1_9 V c ⟨0, hn⟩ zero1_9
  | n + 1, hn => accAt1_9 V c ⟨n + 1, hn⟩ (if (n + 1) % 5 = 0 then zero1_9 else outsAt1_9 c n (Nat.lt_of_succ_lt hn))

/-- The region's proof data on core c: arrays as found on entry; each input keeps its block, the outputs get the layer's output and the running sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => outsAt1_9 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := rfl

theorem after1_8_eq (c : Dev nD) (t : Fin cfg1.N) :
    (dat1 V c).after 8 t = k1_pay3 (iblk1 V c 0 t) (iblk1 V c 1 t) (iblk1 V c 3 t) (iblk1 V c 2 t) (iblk1 V c 4 t) (iblk1 V c 5 t) (iblk1 V c 6 t) (iblk1 V c 7 t) :=
  (pay1_eq (iblk1 V c 0 t) (iblk1 V c 1 t) (iblk1 V c 2 t) (iblk1 V c 3 t) (iblk1 V c 4 t) (iblk1 V c 5 t) (iblk1 V c 6 t) (iblk1 V c 7 t)).1

/-- The recursion of the running sums, read off the proof data. -/
theorem after1_9_rec (c : Dev nD) (t : Fin cfg1.N) :
    (dat1 V c).after 9 t = accAt1_9 V c t (if t.val % 5 = 0 then zero1_9
      else (dat1 V c).after 9 ⟨t.val - 1, Nat.lt_of_le_of_lt (Nat.sub_le _ _) t.isLt⟩) := by
  obtain ⟨n, hn⟩ := t
  cases n <;> rfl

theorem after1_9_reset (c : Dev nD) (t : Fin cfg1.N) (h0 : t.val % 5 = 0) :
    (dat1 V c).after 9 t = accAt1_9 V c t zero1_9 :=
  (after1_9_rec V c t).trans (by rw [if_pos h0])

theorem after1_9_step (c : Dev nD) (t : Fin cfg1.N) (h0 : ¬t.val % 5 = 0) :
    (dat1 V c).after 9 t = accAt1_9 V c t ((dat1 V c).after 9 ⟨t.val - 1, Nat.lt_of_le_of_lt (Nat.sub_le _ _) t.isLt⟩) :=
  (after1_9_rec V c t).trans (by rw [if_neg h0])

/-- The body only reads the inputs, so each input's buffer holds its block at every point. -/
theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) := by
  refine ⟨?_, ?_, ?_, ?_, ?_, ?_, ?_, ?_⟩ <;> intro d <;>
    refine (Dat.before_in_eq_fetched _ _ ?_ ?_ ?_ ?_ t d).trans ?_ <;> intros <;> rfl

/-- One step of the running sums: over the zeros where the condition holds, over what the buffer held otherwise. -/
theorem after1_9_eq (c : Dev nD) (t : Fin cfg1.N) (d) :
    (dat1 V c).after 9 t = accAt1_9 V c t (if cond1_0 (grid1.coords t) then zero1_9 else (dat1 V c).before 9 t d) := by
  by_cases h0 : t.val % 5 = 0
  · rw [if_pos ((hcond1_0 t).mpr h0)]; exact after1_9_reset V c t h0
  · have hN : t.val < 10 := lt_of_lt_of_eq t.isLt (show cfg1.N = 10 from N_1)
    rw [if_neg (mt (hcond1_0 t).mp h0), Dat.before_out_kept _ 9 rfl t (by omega)
      (Bool.eq_false_iff.mpr fun h => by have := (flush1_9 _).mp h; dsimp only at this; omega) (fun _ => rfl) (fun _ _ => rfl)]
    exact after1_9_step V c t h0

theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) fun _ =>
      iprop((dat1 V c).Φ t.castSucc ∗ (dat1 V c).owesAt () t.castSucc
        ∗ owns c (st1_0 t) fullShare (iblk1 V c 0 t)
        ∗ owns c (st1_1 t) fullShare (iblk1 V c 1 t)
        ∗ owns c (st1_2 t) fullShare (iblk1 V c 2 t)
        ∗ owns c (st1_3 t) fullShare (iblk1 V c 3 t)
        ∗ owns c (st1_4 t) fullShare (iblk1 V c 4 t)
        ∗ owns c (st1_5 t) fullShare (iblk1 V c 5 t)
        ∗ owns c (st1_6 t) fullShare (iblk1 V c 6 t)
        ∗ owns c (st1_7 t) fullShare (iblk1 V c 7 t)
        ∗ owns c (st1_8 t) fullShare (out1_8 (iblk1 V c 0 t) (iblk1 V c 1 t) (iblk1 V c 2 t) (iblk1 V c 3 t) (iblk1 V c 4 t) (iblk1 V c 5 t) (iblk1 V c 6 t) (iblk1 V c 7 t))
        ∗ owns c (st1_9 t) fullShare ((dat1 V c).after 9 t))
  dsimp only
  obtain ⟨e0, e1, e2, e3, e4, e5, e6, e7⟩ := before1_in V c t
  simp only [e0, e1, e2, e3, e4, e5, e6, e7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [after1_9_eq V c t d9, accAt1_9]
  iapply sound_kernel1 (iblk1 V c 0 t) (iblk1 V c 1 t) (iblk1 V c 2 t) (iblk1 V c 3 t) (iblk1 V c 4 t) (iblk1 V c 5 t) (iblk1 V c 6 t) (iblk1 V c 7 t) c Set.univ (grid1.coords t)
  iframe
  iintro ⟨H0, H1, H2, H3, H4, H5, H6, H7, H8, H9⟩
  iframe

end Cert.KernelIdeal.Hand

end
-- ==== Proof.KiR2.lean ====
import proofs.«421496_j55748675502408_4_alg».proof.Proof.Gen.KernelIdeal.Launch
import proofs.«421496_j55748675502408_4_alg».proof.Proof.Gen.KernelIdeal.Skeleton
import proofs.«421496_j55748675502408_4_alg».proof.Proof.Gen.KernelIdeal.Points
import proofs.«421496_j55748675502408_4_alg».proof.Proof.LibView
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibView

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's conditional is taken where the second grid coordinate is zero, that is, at the points that start a row. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev row2 : Rect S8x128 := Rect.unit (s := S8x128) ![0, 0] S1x128.size inb_S8x128_S1x128_0_0

def upd2 (x0 : Vec F S5000x128 .f32) (x1 : Vec F S1x128 .f32) (xo : Vec F S8x128 .f32) : Vec F S8x128 .f32 :=
  row2.overlay xo (k2_pay2 x0 x1 (View.ld xo row2))

abbrev zero2 : Vec F S8x128 .f32 := k2_pay1 (F := F)

/-- The body adds the point's column sums to row 0 of the accumulator's block, which it zeroes first where the conditional is taken. -/
theorem sound_kernel2 (c : Dev nD) (E : Set ℕ) (i : grid2.Coords) (arg2 : Memref sig .tc .vmem S5000x128 .f32) (harg2 : arg2.IsWhole)
    (arg3 : Memref sig .tc .vmem S1x128 .f32) (harg3 : arg3.IsWhole) (arg4 : Memref sig .tc .vmem S8x128 .f32) (harg4 : arg4.IsWhole)
    (x0 : Vec F S5000x128 .f32) (x1 : Vec F S1x128 .f32) (xo : Vec F S8x128 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (upd2 x0 x1 (if cond2_0 i then zero2 else xo))) -∗ K ⟨⟩))
      ⊢ wp frame (wpE (defs₀ (F := F)) Variants.none c none) E (cc2__var_kernel i arg2 harg2 arg3 harg3 arg4 harg4) K := by
  simp only [cc2__var_kernel_eq_skeleton]; unfold cc2__var_kernel_skel
  rw [owns_eq_rep (c : Thread nD τ) arg2, owns_eq_rep (c : Thread nD τ) arg3]
  unfold owns
  iintro ⟨H0, H1, ⟨%f2, %hf2, H2⟩, Hk⟩
  subst hf2
  by_cases hc0 : cond2_0 i
  all_goals
    first | rw [if_pos hc0] | rw [if_neg hc0]
    sl_exec (disch := exact hc0)
    sl_step
    iapply Hk
    iframe H0 H1
    iexists _; iframe H2
    ipureintro
    sl_unfold_run_names
    rw [read_writes_cons_overlay]
    simp only [read_writes_unit_zero (s := S8x128) _ _ off00, View.readAt_eq_ld, View.read_rep, View.ld_unit_zero (S := S5000x128) off00,
      View.ld_unit_zero (S := S1x128) off00, View.readCov_eq_canon', View.canon_unit_zero (S := S8x128) off00]
    rfl

def outsAt2 (c : Dev nD) : (n : ℕ) → n < cfg2.N → Vec F S8x128 .f32
  | 0, hn => upd2 (iblk2 V c 0 ⟨0, hn⟩) (iblk2 V c 1 ⟨0, hn⟩) (zero2 (F := F))
  | n + 1, hn =>
    if (n + 1) % 5 = 0 then upd2 (iblk2 V c 0 ⟨n + 1, hn⟩) (iblk2 V c 1 ⟨n + 1, hn⟩) (zero2 (F := F))
    else upd2 (iblk2 V c 0 ⟨n + 1, hn⟩) (iblk2 V c 1 ⟨n + 1, hn⟩) (outsAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2_reset (c : Dev nD) (t : Fin cfg2.N) (h0 : t.val % 5 = 0) :
    (dat2 V c).after 2 t = upd2 (iblk2 V c 0 t) (iblk2 V c 1 t) (zero2 (F := F)) := by
  obtain ⟨n, hn⟩ := t
  cases n with
  | zero => rfl
  | succ n => exact if_pos h0

theorem after2_2_step (c : Dev nD) (t : Fin cfg2.N) (h0 : ¬t.val % 5 = 0) :
    (dat2 V c).after 2 t
      = upd2 (iblk2 V c 0 t) (iblk2 V c 1 t) ((dat2 V c).after 2 ⟨t.val - 1, Nat.lt_of_le_of_lt (Nat.sub_le _ _) t.isLt⟩) := by
  obtain ⟨n, hn⟩ := t
  cases n with
  | zero => exact absurd (Nat.zero_mod _) h0
  | succ n => exact if_neg h0

/-- The body leaves each input as it finds it. -/
theorem kept2 (c : Dev nD) (t : Fin cfg2.N) (w : Fin cfg2.W) (hw : (cfg2.win w).isOut = false) (d) :
    (dat2 V c).before w t d = (dat2 V c).after w t := by
  fin_cases w
  on_goal 3 => exact absurd hw (by decide)
  all_goals exact (Dat.before_in_eq_fetched _ _ rfl (fun _ => rfl) (fun _ _ _ => rfl) (fun _ => rfl) t d).trans rfl

theorem before2_2 (c : Dev nD) (t : Fin cfg2.N) (h0 : ¬t.val % 5 = 0) (d) :
    (dat2 V c).before 2 t d = (dat2 V c).after 2 ⟨t.val - 1, Nat.lt_of_le_of_lt (Nat.sub_le _ _) t.isLt⟩ := by
  have hN : t.val < 10 := lt_of_lt_of_eq t.isLt (show cfg2.N = 10 from N_2)
  exact Dat.before_out_kept _ 2 rfl t (by omega) (Bool.eq_false_iff.mpr fun h => by have := (flush2_2 _).mp h; dsimp only at this; omega)
    (fun _ => rfl) (fun _ _ => rfl) d

/-- So at every point the accumulator's block is the body's update of what the body finds there. -/
theorem after2_2_eq (c : Dev nD) (t : Fin cfg2.N) (d) : (dat2 V c).after 2 t
    = upd2 ((dat2 V c).after 0 t) ((dat2 V c).after 1 t) (if cond2_0 (grid2.coords t) then zero2 else (dat2 V c).before 2 t d) := by
  by_cases h0 : t.val % 5 = 0
  · rw [if_pos ((hcond2_0 t).mpr h0)]; exact after2_2_reset V c t h0
  · rw [if_neg (mt (hcond2_0 t).mp h0), before2_2 V c t h0]; exact after2_2_step V c t h0

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [kept2 V c t 0 rfl, kept2 V c t 1 rfl]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [after2_2_eq V c t d2]
  iapply (sound_kernel2 c Set.univ (grid2.coords t) _ _ _ _ _ _ ((dat2 V c).after 0 t) ((dat2 V c).after 1 t) ((dat2 V c).before 2 t d2) _)
  iframe
  iintro ⟨H0, H1, H2⟩
  iframe

end Cert.KernelIdeal.Hand

end
-- ==== Proof.KiR3.lean ====
import proofs.«421496_j55748675502408_4_alg».proof.Proof.Gen.KernelIdeal.Launch
import proofs.«421496_j55748675502408_4_alg».proof.Proof.Gen.KernelIdeal.Skeleton
import proofs.«421496_j55748675502408_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_5 (x0 : Vec F S5000x128 .f32) (x1 x2 x3 x4 : Vec F S1x128 .f32) : Vec F S5000x128 .f32 :=
  View.canon [⟨r3_0, k3_pay1 (View.ld x0 r3_0) (View.ld x1 r3_1) (View.ld x2 r3_1) (View.ld x3 r3_1) (View.ld x4 r3_1)⟩]

/-- The body reads its five inputs and stores once, through the whole output block. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  rw [owns_eq_rep (c : Thread nD τ) arg1, owns_eq_rep (c : Thread nD τ) arg2, owns_eq_rep (c : Thread nD τ) arg3,
    owns_eq_rep (c : Thread nD τ) arg4, owns_eq_rep (c : Thread nD τ) arg5]
  unfold owns
  iintro ⟨H0, H1, H2, H3, H4, ⟨%d5, %f5, -, H5⟩, Hk⟩
  sl_exec
  sl_step
  iapply Hk
  iframe H0 H1 H2 H3 H4
  iexists _; iframe H5
  ipureintro
  simp only [View.readAt_eq_ld, View.read_rep]
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- The body leaves each input as it finds it. -/
theorem kept3 (c : Dev nD) (t : Fin cfg3.N) (w : Fin cfg3.W) (hw : (cfg3.win w).isOut = false) (d) :
    (dat3 V c).before w t d = (dat3 V c).after w t := by
  fin_cases w
  on_goal 6 => exact absurd hw (by decide)
  all_goals exact (Dat.before_in_eq_fetched _ _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [kept3 V c t 0 rfl, kept3 V c t 1 rfl, kept3 V c t 2 rfl, kept3 V c t 3 rfl, kept3 V c t 4 rfl]
  rw [show (dat3 V c).Φ t.succ = (dat3 V c).Φ t.castSucc from rfl,
    show (dat3 V c).owesAt () t.succ = (dat3 V c).owesAt () t.castSucc from rfl,
    show (dat3 V c).after 5 t = out3_5 ((dat3 V c).after 0 t) ((dat3 V c).after 1 t) ((dat3 V c).after 2 t) ((dat3 V c).after 3 t)
      ((dat3 V c).after 4 t) from by dsimp only [dat3]]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ ((dat3 V c).after 0 t) ((dat3 V c).after 1 t)
    ((dat3 V c).after 2 t) ((dat3 V c).after 3 t) ((dat3 V c).after 4 t) _)
  iframe
  isplitl [H5]; · iexists _; iexact H5
  iintro ⟨H0, H1, H2, H3, H4, H5⟩
  iframe

end Cert.KernelIdeal.Hand

end
-- ==== Proof.KiShare1.lean ====
import proofs.«421496_j55748675502408_4_alg».proof.Proof.KiR1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)
  (W W' : (b : Ref sig .tc) → Buf (Elt F) ((c : Thread nD τ).loc b))
  (Fa : (w : Fin cfg1.W) → Buf (Elt F) ((cfg1.win w).arr.view.loc (c.tc : Thread nD τ)))

theorem unscopedBufs1_split :
    (unscopedBufs c W : sProp 𝕄) = iprop(Pipeline.arrBufs spec1 c W ∗ Pipeline.unscopedRest spec1 c W) :=
  Pipeline.unscopedBufs_split₀ cfgs 1 winFacts₀1.arr_unscoped c W

/-- The ten windows' arrays are nine buffers: the first two windows hold the two halves of one array's full share. -/
theorem arrays1_eq (hF : ∀ w, Fa w = W (Pipeline.arrRef spec1 w)) :
    (dat1 V c).arrays Fa = (Pipeline.arrBufs spec1 c W : sProp 𝕄) := by
  unfold Dat.arrays
  rw [bigSep_congr fun w _ => show _ = (((c.tc : Thread nD τ).loc (Pipeline.arrRef spec1 w)) ↦{(dat1 V c).share w} W (Pipeline.arrRef spec1 w) : sProp 𝕄) by
      rw [(arr_whole1 w).set_eq_univ, hF], bigSep_W1]
  refine Eq.trans ?_ (bigSep_eq_bigSepL_of_eq [main_v18, main_arg0, main_v21, main_arg1, main_v19, main_arg3, main_v20, main_v22_0, main_v22_1]
    (by decide) (by decide) _).symm
  exact (Entails.antisymm sep_assoc sep_assoc').symm.trans (congrArg (fun X : sProp 𝕄 => iprop(X ∗ _))
    (Entails.antisymm (pointsTo_share (PosShare.mem_left_op_right fullShare)).1 (pointsTo_share (PosShare.mem_left_op_right fullShare)).2).symm)

theorem arrays1_of_unscopedBufs (hF : ∀ w, Fa w = W (Pipeline.arrRef spec1 w)) :
    (unscopedBufs c W : sProp 𝕄) ⊢ iprop((dat1 V c).arrays Fa ∗ Pipeline.unscopedRest spec1 c W) := by
  rw [unscopedBufs1_split c W, arrays1_eq V c W Fa hF]

/-- The rest mentions only buffers outside the arrays', and there the two valuations agree. -/
theorem unscopedBufs_of_arrays1 (hF : ∀ w, Fa w = W' (Pipeline.arrRef spec1 w))
    (hrest : ∀ b, b ∉ Finset.univ.image (Pipeline.arrRef spec1) → W' b = W b) :
    iprop((dat1 V c).arrays Fa ∗ Pipeline.unscopedRest spec1 c W) ⊢ (unscopedBufs c W' : sProp 𝕄) := by
  rw [unscopedBufs1_split c W', arrays1_eq V c W' Fa hF]
  refine sep_mono .rfl (Entails.of_eq ?_)
  unfold Pipeline.unscopedRest
  exact bigSep_congr fun b hb => by rw [hrest b (Finset.mem_sdiff.mp hb).2]

end Cert.KernelIdeal.Hand

end
-- ==== Proof.KiClamp.lean ====
import proofs.«421496_j55748675502408_4_alg».proof.Proof.KiFold
import proofs.«421496_j55748675502408_4_alg».proof.Proof.KiR0
import Idealize.ShloMosaic.Lib.StableHlo.Run
import Idealize.ShloMosaic.Lib.WordArith

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- A word clamped to [0, 49999] by the signed maximum and minimum reads, unsigned, below 50000. -/
theorem clamp_word_lt (w : BitVec 32) : (IntOp.minsi 49999#32 (IntOp.maxsi 0#32 w)).toNat < 50000 := by
  have := WordArith.toNat_maxsi_zero w; have := BitVec.toInt_eq_toNat_cond w; have := w.isLt
  rw [WordArith.toNat_minsi_of_lt _ _ (by decide) (by omega)]
  exact (min_le_left _ _).trans_lt (by decide)

variable (m : (ℓ : Loc nD τ sig) → Buf (Elt F) ℓ)

abbrev clampArr (x : IVec S800000 32) : IVec S800000 32 :=
  minsi (broadcastInDim S800000 ![] bcast_S_S800000 (constantI S_ 32 49999#32))
    (maxsi (broadcastInDim S800000 ![] bcast_S_S800000 (constantI S_ 32 0#32)) x)

/-- At the region's entry the source endpoints are still the clamp of their argument: no later host stretch writes them. -/
theorem Vin0_main_v0 (c : Dev nD) :
    (Vin0 m c main_v0 : IVec S800000 32) = clampArr (m (c, Proc.devRef .tc main_arg7)) :=
  (V5_of m c main_v0 (by decide)).trans <| (V4_of m c main_v0 (by decide)).trans <| (V3_of m c main_v0 (by decide)).trans <| by
    show StableHlo.after hostOps0_1 _ (Proc.devRef .tc main_v0) = _
    after_results
    rfl

theorem Vin0_main_v1 (c : Dev nD) :
    (Vin0 m c main_v1 : IVec S800000 32) = clampArr (W3 m c (Proc.devRef .tc main_arg8)) :=
  (V5_of m c main_v1 (by decide)).trans <| by
    show StableHlo.after hostOps0_3 _ (Proc.devRef .tc main_v1) = _
    after_results
    rfl

theorem inRange5 : InRange0 (Vin0 m) := fun c i =>
  ⟨(congrArg BitVec.toNat (congrFun (Vin0_main_v0 m c) i)).trans_lt (clamp_word_lt _),
   (congrArg BitVec.toNat (congrFun (Vin0_main_v1 m c) i)).trans_lt (clamp_word_lt _)⟩

end Cert.KernelIdeal.Hand

end
-- ==== Proof.KiRun.lean ====
import proofs.«421496_j55748675502408_4_alg».proof.Proof.KiFold
import proofs.«421496_j55748675502408_4_alg».proof.Proof.KiR0
import proofs.«421496_j55748675502408_4_alg».proof.Proof.KiR1
import proofs.«421496_j55748675502408_4_alg».proof.Proof.KiR2
import proofs.«421496_j55748675502408_4_alg».proof.Proof.KiR3
import proofs.«421496_j55748675502408_4_alg».proof.Proof.KiShare1
import proofs.«421496_j55748675502408_4_alg».proof.Proof.KiClamp
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W6 (c : Dev nD) : Valuation τ sig (Elt F) :=
  Pipeline.withArrays spec0 c (W5 m c) fun w => (dat0 (Vin0 m) c).arrAt w cfg0.N
theorem W6_arr (c : Dev nD) (w : Fin cfg0.W) :
    W6 m c (Proc.devRef .tc (Pipeline.arrRef spec0 w)) = (dat0 (Vin0 m) c).arrAt w cfg0.N :=
  Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) :=
  Pipeline.withArrays_of_ne spec0 c _ _ b hb

abbrev W7 (c : Dev nD) : Valuation τ sig (Elt F) := StableHlo.after hostOps1 (W6 m c)
abbrev Vin1 : (c : Dev nD) → (b : Ref sig .tc) → Buf (Elt F) ((c : Thread nD τ).loc b) := fun c b => W7 m c b

/-- Two of the second region's windows read one array, so its two results are set one by one. -/
def W8 (c : Dev nD) : Valuation τ sig (Elt F) :=
  Function.update (Function.update (W7 m c) (Proc.devRef .tc main_v22_0) ((dat1 (Vin1 m) c).arrAt 8 cfg1.N))
    (Proc.devRef .tc main_v22_1) ((dat1 (Vin1 m) c).arrAt 9 cfg1.N)
theorem W8_of_ne (c : Dev nD) (b : Ref sig .tc) (h0 : b ≠ main_v22_0) (h1 : b ≠ main_v22_1) :
    W8 m c (Proc.devRef .tc b) = W7 m c (Proc.devRef .tc b) := by
  unfold W8
  rw [Function.update_of_ne (StableHlo.devRef_ne_of_ne h1), Function.update_of_ne (StableHlo.devRef_ne_of_ne h0)]
theorem W8_v22_0 (c : Dev nD) : W8 m c (Proc.devRef .tc main_v22_0) = (dat1 (Vin1 m) c).arrAt 8 cfg1.N := by
  unfold W8
  rw [Function.update_of_ne (StableHlo.devRef_ne_of_ne (by decide : main_v22_0 ≠ main_v22_1)), Function.update_self]
theorem W8_v22_1 (c : Dev nD) : W8 m c (Proc.devRef .tc main_v22_1) = (dat1 (Vin1 m) c).arrAt 9 cfg1.N := by
  unfold W8; rw [Function.update_self]
abbrev Vout1 : (c : Dev nD) → (b : Ref sig .tc) → Buf (Elt F) ((c : Thread nD τ).loc b) := fun c b => W8 m c b
/-- A window is one of the two results, or an input whose array the region leaves as it found it. -/
theorem hF1 (c : Dev nD) (w : Fin cfg1.W) : (dat1 (Vin1 m) c).arrAt w cfg1.N = Vout1 m c (Pipeline.arrRef spec1 w) := by
  obtain rfl | rfl | ⟨hi, h0, h1⟩ : w = 8 ∨ w = 9 ∨ (cfg1.win w).isOut = false ∧ Pipeline.arrRef spec1 w ≠ main_v22_0
      ∧ Pipeline.arrRef spec1 w ≠ main_v22_1 := by revert w; decide
  · exact (W8_v22_0 m c).symm
  · exact (W8_v22_1 m c).symm
  · exact ((dat1 (Vin1 m) c).arrAt_in w hi _).trans ((A_eq1 (Vin1 m) c w).trans (W8_of_ne m c _ h0 h1).symm)
theorem hrest1 (c : Dev nD) : ∀ b, b ∉ Finset.univ.image (Pipeline.arrRef spec1) → Vout1 m c b = Vin1 m c b :=
  fun b hb => W8_of_ne m c b (fun h => hb (h ▸ Finset.mem_image.mpr ⟨8, Finset.mem_univ _, rfl⟩))
    (fun h => hb (h ▸ Finset.mem_image.mpr ⟨9, Finset.mem_univ _, rfl⟩))

abbrev W9 (c : Dev nD) : Valuation τ sig (Elt F) := StableHlo.after hostOps2 (W8 m c)
abbrev Vin2 : (c : Dev nD) → (b : Ref sig .tc) → Buf (Elt F) ((c : Thread nD τ).loc b) := fun c b => W9 m c b

def W10 (c : Dev nD) : Valuation τ sig (Elt F) :=
  Pipeline.withArrays spec2 c (W9 m c) fun w => (dat2 (Vin2 m) c).arrAt w cfg2.N
theorem W10_arr (c : Dev nD) (w : Fin cfg2.W) :
    W10 m c (Proc.devRef .tc (Pipeline.arrRef spec2 w)) = (dat2 (Vin2 m) c).arrAt w cfg2.N :=
  Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) :=
  Pipeline.withArrays_of_ne spec2 c _ _ b hb

abbrev W11 (c : Dev nD) : Valuation τ sig (Elt F) := StableHlo.after hostOps3 (W10 m c)
abbrev Vin3 : (c : Dev nD) → (b : Ref sig .tc) → Buf (Elt F) ((c : Thread nD τ).loc b) := fun c b => W11 m c b

def W12 (c : Dev nD) : Valuation τ sig (Elt F) :=
  Pipeline.withArrays spec3 c (W11 m c) fun w => (dat3 (Vin3 m) c).arrAt w cfg3.N
theorem W12_arr (c : Dev nD) (w : Fin cfg3.W) :
    W12 m c (Proc.devRef .tc (Pipeline.arrRef spec3 w)) = (dat3 (Vin3 m) c).arrAt w cfg3.N :=
  Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) :=
  Pipeline.withArrays_of_ne spec3 c _ _ b hb

/-- A reference that no host stretch so far writes and no region's window so far names still holds its launch contents. -/
theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) :
    W5 m c (Proc.devRef .tc r) = m ((c : Thread nD τ).loc r) :=
  (V5_of m c r h4).trans <| (V4_of m c r h3).trans <| (V3_of m c r h2).trans <| (V2_of m c r h1).trans (V1_of m c r h0)

theorem W6_launch (c : Dev nD) (r : Ref sig .tc) (hr0 : ∀ w, Pipeline.arrRef spec0 w ≠ r) (h0 : r ∉ hostOps0_W)
    (h1 : r ∉ hostOps0_1_W) (h2 : r ∉ hostOps0_2_W) (h3 : r ∉ hostOps0_3_W) (h4 : r ∉ hostOps0_4_W) :
    W6 m c (Proc.devRef .tc r) = m ((c : Thread nD τ).loc r) :=
  (W6_of_ne m c r hr0).trans (W5_launch m c r h0 h1 h2 h3 h4)

theorem W7_launch (c : Dev nD) (r : Ref sig .tc) (hh1 : r ∉ hostOps1_W) (hr0 : ∀ w, Pipeline.arrRef spec0 w ≠ r)
    (h0 : r ∉ hostOps0_W) (h1 : r ∉ hostOps0_1_W) (h2 : r ∉ hostOps0_2_W) (h3 : r ∉ hostOps0_3_W) (h4 : r ∉ hostOps0_4_W) :
    W7 m c (Proc.devRef .tc r) = m ((c : Thread nD τ).loc r) :=
  (StableHlo.after_of_writes_sub hostOps1 _ hostOps1_writes hh1).trans (W6_launch m c r hr0 h0 h1 h2 h3 h4)

theorem W10_launch (c : Dev nD) (r : Ref sig .tc) (hr2 : ∀ w, Pipeline.arrRef spec2 w ≠ r) (hh2 : r ∉ hostOps2_W)
    (hr1a : r ≠ main_v22_0) (hr1b : r ≠ main_v22_1) (hh1 : r ∉ hostOps1_W) (hr0 : ∀ w, Pipeline.arrRef spec0 w ≠ r)
    (h0 : r ∉ hostOps0_W) (h1 : r ∉ hostOps0_1_W) (h2 : r ∉ hostOps0_2_W) (h3 : r ∉ hostOps0_3_W) (h4 : r ∉ hostOps0_4_W) :
    W10 m c (Proc.devRef .tc r) = m ((c : Thread nD τ).loc r) :=
  (W10_of_ne m c r hr2).trans <| (StableHlo.after_of_writes_sub hostOps2 _ hostOps2_writes hh2).trans <|
    (W8_of_ne m c r hr1a hr1b).trans (W7_launch m c r hh1 hr0 h0 h1 h2 h3 h4)

/-- No host stretch writes `r` and no region's window names it. -/
abbrev Untouched (r : Ref sig .tc) : Prop :=
  (∀ w, Pipeline.arrRef spec3 w ≠ r) ∧ r ∉ hostOps3_W ∧ (∀ w, Pipeline.arrRef spec2 w ≠ r) ∧ r ∉ hostOps2_W
    ∧ r ≠ main_v22_0 ∧ r ≠ main_v22_1 ∧ r ∉ hostOps1_W ∧ (∀ w, Pipeline.arrRef spec0 w ≠ r)
    ∧ r ∉ hostOps0_W ∧ r ∉ hostOps0_1_W ∧ r ∉ hostOps0_2_W ∧ r ∉ hostOps0_3_W ∧ r ∉ hostOps0_4_W

theorem W12_launch (c : Dev nD) (r : Ref sig .tc) (h : Untouched r) :
    W12 m c (Proc.devRef .tc r) = m ((c : Thread nD τ).loc r) :=
  let ⟨hr3, hh3, hr2, hh2, hr1a, hr1b, hh1, hr0, h0, h1, h2, h3, h4⟩ := h
  (W12_of_ne m c r hr3).trans <| (StableHlo.after_of_writes_sub hostOps3 _ hostOps3_writes hh3).trans
    (W10_launch m c r hr2 hh2 hr1a hr1b hh1 hr0 h0 h1 h2 h3 h4)

def pdats : (p : Fin 4) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

set_option backward.isDefEq.respectTransparency.types false in
/-- Region `p` as a segment from the contents `Wi` to the contents `Wo`, given how its arrays leave and rejoin the other buffers. -/
def regOf (p : Fin 4) (win : Pipeline.WinFacts₀ (cfgs p).spec) (hpos : ∀ w : Fin (cfgs p).W, 0 < ((cfgs p).spec w).block.numel)
    (hst : ∀ (w : Fin (cfgs p).W) (s : Fin ((cfgs p).spec w).nbuf), (((cfgs p).spec w).stage s).IsWhole)
    (hbody : ∀ c, Pipeline.BodyObligationLoose (pdats m p c) defs₀ 𝒱₀ () Set.univ)
    (h0 : ∀ c t, (pdats m p c).owed t = 0) (hrec : ∀ c, (pdats m p c).recorded 0 = Set.univ)
    (hΦ : ∀ c t, (pdats m p c).Φ t = Pipeline.ΦA (cfgs p).spec c) (Wi Wo : Dev nD → Valuation τ sig (Elt F))
    (hsplit : ∀ c, (unscopedBufs c (fun b => Wi c b) : sProp 𝕄)
      ⊢ iprop((pdats m p c).arrays ((pdats m p c).arrAt · 0) ∗ Pipeline.unscopedRest (cfgs p).spec c fun b => Wi c b))
    (hjoin : ∀ c, iprop((pdats m p c).arrays ((pdats m p c).arrAt · (cfgs p).N) ∗ Pipeline.unscopedRest (cfgs p).spec c fun b => Wi c b)
      ⊢ (unscopedBufs c (fun b => Wo c b) : sProp 𝕄)) :
    Pipeline.RegionSeg (pcfgs (F := F)) adm (pdats m) () defs₀ 𝒱₀ L lv p where
  win := win
  block_pos := hpos
  stage_whole := hst
  K := PEmpty
  osem k := k.elim
  ho := Pipeline.OwnSemFacts.none _
  hbody := hbody
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    have hs := hsplit c
    rw [Pipeline.unscopedBufs_held] at hs
    rw [Pipeline.ownSems0_none]
    unfold Pipeline.Dat.owesAt Pipeline.owesWithin Pipeline.Dat.bound Pipeline.prefHeld
    rw [h0 c, hrec c, show (Finset.univ : Finset (Fin 0)) = ∅ from rfl, BI.bigSep_empty]
    iintro ⟨⟨Hub, Hp, %W, HO⟩, -, -⟩
    ihave H := hs $$ Hub
    icases H with ⟨Ha, Hrest⟩
    imodintro
    isplitl [Ha]; · iexact Ha
    isplitr; · iempintro
    isplitl [HO]
    · iexists W; isplitr; · ipureintro; exact fun _ _ => Or.inl trivial
      iexact HO
    iframe
  hin c := by
    rw [hΦ c 0]; unfold Pipeline.ΦA
    iintro ⟨Hp, -, Hr⟩
    iframe
  hout c := by
    rw [Pipeline.ownSems0_none, hΦ c (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [h0 c]
    iintro ⟨Ha, ⟨%W, -, HO⟩, HY, Hrest⟩
    imodintro
    isplitl [Ha Hrest]
    · iapply hj; iframe
    isplitl [HY]; · iexact HY
    iexists W; iexact HO

set_option backward.isDefEq.respectTransparency.types false in
/-- A region whose windows name distinct arrays: those end at what its write-backs leave, every other buffer as entered. -/
def regArr (p : Fin 4) (lf : Pipeline.LaunchFacts (nD := nD) (τ := τ) cfgs p)
    (hbody : ∀ c, Pipeline.BodyObligationLoose (pdats m p c) defs₀ 𝒱₀ () Set.univ)
    (h0 : ∀ c t, (pdats m p c).owed t = 0) (hrec : ∀ c, (pdats m p c).recorded 0 = Set.univ)
    (hΦ : ∀ c t, (pdats m p c).Φ t = Pipeline.ΦA (cfgs p).spec c) (hq : ∀ c w, (pdats m p c).q w = fullShare)
    (Wi : Dev nD → Valuation τ sig (Elt F)) (hA : ∀ c w, (pdats m p c).A w = Wi c (Pipeline.arrRef (cfgs p).spec w)) :
    Pipeline.RegionSeg (pcfgs (F := F)) adm (pdats m) () defs₀ 𝒱₀ L lv p :=
  regOf m p lf.win.to₀ lf.block_pos lf.stage_whole hbody h0 hrec hΦ Wi
    (fun c => Pipeline.withArrays (cfgs p).spec c (Wi c) fun w => (pdats m p c).arrAt w (cfgs p).N)
    (fun c => Pipeline.arrays_of_unscopedBufs (pcfgs (F := F)) adm (pdats m) lf.win lf.arr_whole c
      ((pdats m p c).share_full (hq c)) _ (hA c))
    (fun c => Pipeline.unscopedBufs_of_arrays (pcfgs (F := F)) adm (Ix := Unit) (Name := ℕ) (U := UR sig nD τ) (Lvl := ℕ)
      lf.win lf.arr_whole c (pdats m) ((pdats m p c).share_full (hq c)) _ _ _
      (fun w => (Pipeline.withArrays_arr (cfgs p).spec lf.win.arr_inj c (Wi c) (fun w => (pdats m p c).arrAt w (cfgs p).N) w).symm)
      fun b hb => Pipeline.withArrays_of_ne (cfgs p).spec c _ _ b fun w e => hb (Finset.mem_image.mpr ⟨w, Finset.mem_univ _, e⟩))

def reg0 : Pipeline.RegionSeg (pcfgs (F := F)) adm (pdats m) () defs₀ 𝒱₀ L lv 0 :=
  regArr m 0 launch0 (fun c => (body_obligation0 (Vin0 m) (inRange5 m) c).loose) (fun _ _ => rfl) (fun _ => rfl)
    (fun _ _ => rfl) (fun _ _ => rfl) (W5 m) fun _ _ => rfl

/-- Two of this region's windows name one array, so its arrays leave and rejoin the other buffers by their own two lemmas. -/
def reg1 : Pipeline.RegionSeg (pcfgs (F := F)) adm (pdats m) () defs₀ 𝒱₀ L lv 1 :=
  regOf m 1 winFacts₀1 block_pos1 stage_whole1 (fun c => (body_obligation1 (Vin1 m) c).loose)
    (fun _ _ => rfl) (fun _ => rfl) (fun _ _ => rfl) (W7 m) (W8 m)
    (fun c => arrays1_of_unscopedBufs (Vin1 m) c (Vin1 m c) ((pdats m 1 c).arrAt · 0) fun _ => rfl)
    (fun c => unscopedBufs_of_arrays1 (Vin1 m) c (Vin1 m c) (Vout1 m c) ((pdats m 1 c).arrAt · cfg1.N) (hF1 m c) (hrest1 m c))

def reg2 : Pipeline.RegionSeg (pcfgs (F := F)) adm (pdats m) () defs₀ 𝒱₀ L lv 2 :=
  regArr m 2 launch2 (fun c => (body_obligation2 (Vin2 m) c).loose) (fun _ _ => rfl) (fun _ => rfl)
    (fun _ _ => rfl) (fun _ _ => rfl) (W9 m) fun _ _ => rfl

def reg3 : Pipeline.RegionSeg (pcfgs (F := F)) adm (pdats m) () defs₀ 𝒱₀ L lv 3 :=
  regArr m 3 launch3 (fun c => (body_obligation3 (Vin3 m) c).loose) (fun _ _ => rfl) (fun _ => rfl)
    (fun _ _ => rfl) (fun _ _ => rfl) (W11 m) fun _ _ => rfl

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      iframe)
    (hQ := fun s h c => h c)

theorem run_result : θ_run defs (onTc (τ := τ) (main (F := F))) ⟨m, fun _ => 0, ρ⟩ (fun r => ∀ c : Dev nD,
      r.2.mem ((c.tc : Thread nD τ).loc main_v46) = (dat3 (Vin3 m) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have arg (b : Ref sig .tc) (hs : ¬ (Proc.devRef .tc b : DevRef τ sig).isScoped) (hb : Untouched b) :
        r.2.mem ((c.tc : Thread nD τ).loc b) = m ((c.tc : Thread nD τ).loc b) :=
      (h c _ (mem_uc b hs)).trans (W12_launch m c b hb)
    ⟨(h c _ (mem_uc main_v46 (by decide))).trans (W12_arr m c 5),
     arg main_arg0 (by decide) (by decide), arg main_arg1 (by decide) (by decide), arg main_arg2 (by decide) (by decide),
     arg main_arg3 (by decide) (by decide), arg main_arg4 (by decide) (by decide), arg main_arg5 (by decide) (by decide),
     arg main_arg6 (by decide) (by decide), arg main_arg7 (by decide) (by decide), arg main_arg8 (by decide) (by decide)⟩) (run_all m ρ)

end Cert.KernelIdeal.Hand

end
-- ==== Proof.LibGatherScatter.lean ====
import Idealize.ShloMosaic.PureOps.Ideal
import Idealize.ShloMosaic.Lib.ValueIdxRank1

noncomputable section

open scoped BigOperators

namespace Idealize.ShloMosaic.GatherScatter

open Idealize.ShloMosaic Idealize.ShloMosaic.ValueIdx

section General
variable {s si u : Shape}

theorem mem_kept {axes : List (Fin s.rank)} {a : Fin s.rank} : a ∈ s.kept axes ↔ a ∉ axes := by
  simp [Shape.kept]

-- `resultIdx?` is `some i` precisely when start + window coordinate equals `i`'s coordinate on each axis.
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    refine ⟨fun he a => ?_, fun H => congrArg some (funext fun a => Fin.ext ?_)⟩
    · have hv := congrArg Fin.val (congrFun (Option.some.inj he) a)
      have := (h a).1
      simp only at hv
      omega
    · have := H a
      simp only
      omega
  · rename_i h
    exact ⟨fun he => (nomatch he), fun H => (h fun a => by have := H a; have := (i a).isLt; omega).elim⟩

end General

section VecScatter

abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

theorem vecScatter_start (idx : IVec ⟨2, ![M, 1]⟩ w) (j : Fin M) :
    (vecScatterDims N M wf).start (ix1 j) idx 0 = (idx (ix2 j 0)).toInt := by
  unfold ScatterDims.start
  rw [dif_pos (List.mem_singleton.mpr rfl)]
  refine congrArg (fun k => (idx k).toInt) (funext fun b => Fin.ext ?_)
  match b with
  | ⟨0, _⟩ => rfl
  | ⟨1, _⟩ => rfl

theorem vecScatter_window (j : (⟨1, ![M]⟩ : Shape).Idx) : (vecScatterDims N M wf).window j 0 = 0 := by
  unfold ScatterDims.window
  rw [dif_neg fun hk => mem_kept.1 hk (List.mem_singleton.mpr rfl)]

theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff, Fin.forall_fin_one, vecScatter_start, vecScatter_window, Nat.cast_zero, add_zero]

end VecScatter

section RowScatter

abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

theorem rowScatter_start0 (idx : IVec ⟨2, ![M, 1]⟩ w) (j : Fin M) (f : Fin C) :
    (rowScatterDims N C M wf).start (ix2 j f) idx 0 = (idx (ix2 j 0)).toInt := by
  unfold ScatterDims.start
  rw [dif_pos (List.mem_singleton.mpr rfl)]
  refine congrArg (fun k => (idx k).toInt) (funext fun b => Fin.ext ?_)
  match b with
  | ⟨0, _⟩ => rfl
  | ⟨1, _⟩ => rfl

theorem rowScatter_start1 (idx : IVec ⟨2, ![M, 1]⟩ w) (j : (⟨2, ![M, C]⟩ : Shape).Idx) :
    (rowScatterDims N C M wf).start j idx 1 = 0 :=
  dif_neg (by decide : (1 : Fin 2) ∉ ([0] : List (Fin 2)))

theorem rowScatter_window0 (j : (⟨2, ![M, C]⟩ : Shape).Idx) : (rowScatterDims N C M wf).window j 0 = 0 :=
  dif_neg fun hk => mem_kept.1 hk (List.mem_singleton.mpr rfl)

theorem rowScatter_window1 (j : Fin M) (f : Fin C) : (rowScatterDims N C M wf).window (ix2 j f) 1 = f.val := by
  unfold ScatterDims.window
  rw [dif_pos (mem_kept.2 (by decide : (1 : Fin 2) ∉ ([0] : List (Fin 2))))]
  rfl

theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff, Fin.forall_fin_two, rowScatter_start0, rowScatter_window0, rowScatter_start1,
    rowScatter_window1, Nat.cast_zero, add_zero, zero_add]
  exact and_congr_right' (Nat.cast_inj.trans Fin.val_inj)

end RowScatter

section RowGather
variable {α : Type}

abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

theorem rowGather_start0 (idx : IVec ⟨2, ![M, 1]⟩ w) (j : Fin M) (f : Fin C) :
    (rowGatherDims N C M wf).start (ix2 j f) idx 0 = min (idx (ix2 j 0)).toInt.toNat (N - 1) := by
  unfold GatherDims.start
  rw [dif_pos (List.mem_singleton.mpr rfl)]
  refine congrArg (fun k => min (idx k).toInt.toNat (N - 1)) (funext fun b => Fin.ext ?_)
  match b with
  | ⟨0, _⟩ => rfl
  | ⟨1, _⟩ => rfl

theorem rowGather_start1 (idx : IVec ⟨2, ![M, 1]⟩ w) (j : (⟨2, ![M, C]⟩ : Shape).Idx) :
    (rowGatherDims N C M wf).start j idx 1 = 0 :=
  dif_neg (by decide : (1 : Fin 2) ∉ ([0] : List (Fin 2)))

theorem rowGather_offCoord1 (j : Fin M) (f : Fin C) : (rowGatherDims N C M wf).offCoord (ix2 j f) 1 = f.val := by
  unfold GatherDims.offCoord
  rw [dif_pos (mem_kept.2 (by decide : (1 : Fin 2) ∉ ([0] ++ [] : List (Fin 2))))]
  rfl

-- Gathering rows: result row `j` is the operand's row number `idx[j, 0]`, taken signed and clamped into range.
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  refine congrArg x (funext fun a => Fin.ext ?_)
  simp only [GatherDims.operandIdx, GatherDims.batchCoord_eq_zero (rowGatherDims N C M wf) _ _ List.not_mem_nil, Nat.add_zero]
  match a with
  | ⟨0, _⟩ =>
    show (rowGatherDims N C M wf).start (ix2 j f) idx 0 + (rowGatherDims N C M wf).offCoord (ix2 j f) 0 = _
    rw [rowGather_start0, GatherDims.offCoord_eq_zero _ _ _ fun hk => mem_kept.1 hk (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

section Sums

theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

variable {φ : FTy}

-- Scatter-add of scalars: entry `i` of the result is `x i` plus every update whose index equals `i`.
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  exact Finset.sum_congr rfl fun j _ => if_congr (vecScatter_resultIdx wf idx j i) rfl rfl

-- Scatter-add of rows: entry `(i, g)` is `x (i, g)` plus column `g` of every update row whose index equals `i`.
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true, Finset.sum_ite_eq', Finset.mem_univ]
  · simp only [h, false_and, if_false, Finset.sum_const_zero]

end Sums

end Idealize.ShloMosaic.GatherScatter

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

-- Three float constants, given by their bit patterns: 1.0, 50000.0 (one per node), and the variance's additive constant.
def one : EReal := Ideal.ofBits .f32 0x3F800000#32

def cnt : EReal := Ideal.ofBits .f32 0x47435000#32

def eps : EReal := Ideal.ofBits .f32 0x3727C5AC#32

abbrev Ends : Type := IVec (⟨1, ![800000]⟩ : Shape) 32

abbrev Feat : Type := (⟨2, ![50000, 128]⟩ : Shape).Idx → EReal

abbrev Wt : Type := (⟨2, ![128, 128]⟩ : Shape).Idx → EReal

abbrev Row : Type := (⟨1, ![128]⟩ : Shape).Idx → EReal

-- `at_ ends n`: the edges `e` with `ends[e] = n` as a signed integer; `deg` adds a one for each.
def at_ (ends : Ends) (n : Fin 50000) : Finset (Fin 800000) :=
  Finset.univ.filter fun e : Fin 800000 => (ends (ix1 e)).toInt = (n.val : Int)

def deg (ends : Ends) (n : Fin 50000) : EReal := ∑ _e ∈ at_ ends n, one

-- `nrm = 1 / sqrt (max deg 1)`.
def nrm (ends : Ends) (n : Fin 50000) : EReal := Ideal.rsqrt (max (deg ends n) one)

-- Indexing the node table by a word reads the entry at its signed value, negative values taken as 0 and large ones as 49999.
def node (w : BitVec 32) : Fin 50000 := ⟨min w.toInt.toNat 49999, by omega⟩

def hft (x : Feat) (src : Ends) (n : Fin 50000) (j : Fin 128) : EReal := x (ix2 n j) * nrm src n

-- `agg n j`: the sum, over the edges `e` with destination `n`, of `hft` at the node that `src[e]` indexes.
def agg (x : Feat) (src dst : Ends) (n : Fin 50000) (j : Fin 128) : EReal :=
  ∑ e ∈ at_ dst n, hft x src (node (src (ix1 e))) j

-- Three summands: the aggregate times `nrm dst` through `wg` and `bg`; the residual `x`; `x` through `wl` and `bl`.
def pre (x : Feat) (wg : Wt) (bg : Row) (wl : Wt) (bl : Row) (src dst : Ends) (n : Fin 50000) (j : Fin 128) : EReal :=
  (((∑ k : Fin 128, (agg x src dst n k * nrm dst n) * wg (ix2 k j)) + bg (ix1 j)) + x (ix2 n j))
    + ((∑ k : Fin 128, x (ix2 n k) * wl (ix2 k j)) + bl (ix1 j))

def mean (p : Fin 50000 → Fin 128 → EReal) (j : Fin 128) : EReal := Ideal.div (∑ n : Fin 50000, p n j) cnt

def var (p : Fin 50000 → Fin 128 → EReal) (j : Fin 128) : EReal :=
  Ideal.div (∑ n : Fin 50000, (p n j - mean p j) * (p n j - mean p j)) cnt

def bn (p : Fin 50000 → Fin 128 → EReal) (gamma beta : Row) (n : Fin 50000) (j : Fin 128) : EReal :=
  max ((((p n j - mean p j) * Ideal.rsqrt (var p j + eps)) * gamma (ix1 j)) + beta (ix1 j)) 0

def out (x : Feat) (wg : Wt) (bg : Row) (wl : Wt) (bl : Row) (gamma beta : Row) (src dst : Ends) (n : Fin 50000) (j : Fin 128) : EReal :=
  bn (pre x wg bg wl bl src dst) gamma beta n j

-- All endpoint words, read signed, lie in [0, 50000).
def InRange (ends : Ends) : Prop := ∀ e : Fin 800000, 0 ≤ (ends (ix1 e)).toInt ∧ (ends (ix1 e)).toInt < 50000

end Cert.Spec

end
-- ==== Proof.RefVal.lean ====
import proofs.«421496_j55748675502408_4_alg».proof.Proof.Gen.ReferenceIdeal.Run
import proofs.«421496_j55748675502408_4_alg».proof.Proof.Gen.ReferenceIdeal.Read
import proofs.«421496_j55748675502408_4_alg».proof.Proof.LibGatherScatter
import proofs.«421496_j55748675502408_4_alg».proof.Proof.Spec

noncomputable section

open scoped BigOperators

namespace Cert.ReferenceIdeal.RefVal

open Cert.ReferenceIdeal Cert.ReferenceIdeal.Gen Cert.ReferenceIdeal.Read Idealize.ShloMosaic Idealize.ShloMosaic.ValueIdx
  Idealize.ShloMosaic.GatherScatter

abbrev Feat : Type := (⟨S50000x128, .f32⟩ : BufTy).Contents (Elt Ideal)
abbrev Wt : Type := (⟨S128x128, .f32⟩ : BufTy).Contents (Elt Ideal)
abbrev Row : Type := (⟨S128, .f32⟩ : BufTy).Contents (Elt Ideal)
abbrev Ends : Type := (⟨S800000, .i32⟩ : BufTy).Contents (Elt Ideal)

theorem vecDims_eq : scatter_S50000_S800000x1_S800000_n_0_0_1
    = vecScatterDims 50000 800000 scatter_S50000_S800000x1_S800000_n_0_0_1_wf := rfl

theorem rowGatherDims_eq : gather_S50000x128_S800000x1_S800000x128_1_0_n_n_0_1_1128
    = rowGatherDims 50000 128 800000 gather_S50000x128_S800000x1_S800000x128_1_0_n_n_0_1_1128_wf := rfl

theorem rowScatterDims_eq : scatter_S50000x128_S800000x1_S800000x128_1_0_0_1
    = rowScatterDims 50000 128 800000 scatter_S50000x128_S800000x1_S800000x128_1_0_0_1_wf := rfl

theorem idx_v2 (e : Fin 800000) : idx_main_v2 (ix2 e (0 : Fin 1)) = ix1 e := eq_ix1 _
theorem idx_v5 (e : Fin 800000) : idx_main_v5 (ix2 e (0 : Fin 1)) = ix1 e := eq_ix1 _
theorem idx_v21 (e : Fin 800000) : idx_main_v21 (ix2 e (0 : Fin 1)) = ix1 e := eq_ix1 _
theorem idx_v24 (e : Fin 800000) : idx_main_v24 (ix2 e (0 : Fin 1)) = ix1 e := eq_ix1 _
theorem idx_v13 (n : Fin 50000) (j : Fin 128) : idx_main_v13 (idx_main_v14 (ix2 n j)) = ix1 n := eq_ix1 _
theorem idx_v26 (n : Fin 50000) (j : Fin 128) : idx_main_v26 (idx_main_v27 (ix2 n j)) = ix1 n := eq_ix1 _
theorem idx_v30 (n : Fin 50000) (j : Fin 128) : idx_main_v30 (idx_main_v31 (ix2 n j)) = ix1 j := eq_ix1 _
theorem idx_v35 (n : Fin 50000) (j : Fin 128) : idx_main_v35 (idx_main_v36 (ix2 n j)) = ix1 j := eq_ix1 _
theorem idx_v42 (n : Fin 50000) (j : Fin 128) : idx_main_v42 (idx_main_v43 (ix2 n j)) = ix1 j := eq_ix1 _
theorem idx_v49 (n : Fin 50000) (j : Fin 128) : idx_main_v49 (idx_main_v50 (ix2 n j)) = ix1 j := eq_ix1 _
theorem idx_v55 (n : Fin 50000) (j : Fin 128) : idx_main_v55 (idx_main_v56 (ix2 n j)) = ix1 j := eq_ix1 _
theorem idx_v58 (n : Fin 50000) (j : Fin 128) : idx_main_v58 (idx_main_v59 (ix2 n j)) = ix1 j := eq_ix1 _
theorem idx_v61 (n : Fin 50000) (j : Fin 128) : idx_main_v61 (idx_main_v62 (ix2 n j)) = ix1 j := eq_ix1 _
theorem lidx_v29 (n : Fin 50000) (j k : Fin 128) : lidx_main_v29 (ix2 n j) k = ix2 n k := eq_ix2 _
theorem ridx_v29 (n : Fin 50000) (j k : Fin 128) : ridx_main_v29 (ix2 n j) k = ix2 k j := eq_ix2 _
theorem lidx_v34 (n : Fin 50000) (j k : Fin 128) : lidx_main_v34 (ix2 n j) k = ix2 n k := eq_ix2 _
theorem ridx_v34 (n : Fin 50000) (j k : Fin 128) : ridx_main_v34 (ix2 n j) k = ix2 k j := eq_ix2 _
theorem idx_v39 (j : Fin 128) (k : Fin 50000) : idx_main_v39 (ix1 j) k = ix2 k j := eq_ix2 _
theorem idx_v46 (j : Fin 128) (k : Fin 50000) : idx_main_v46 (ix1 j) k = ix2 k j := eq_ix2 _

section Stages

variable {x0 : Feat} {x1 : Wt} {x2 : Row} {x3 : Wt} {x4 x5 x6 : Row} {x7 x8 : Ends} (n : Fin 50000) (j : Fin 128)

-- The degree scatter adds a one at each edge's endpoint: at node `n` it counts the edges that end at `n`.
theorem deg_src : val_main_v3 (F := Ideal) x7 (ix1 n) = Cert.Spec.deg x7 n := by
  unfold val_main_v3
  rw [vecDims_eq, vecScatterAdd_apply, val_main_v1_apply, val_main_cst_0_apply, Ideal.ofBits_def, Ideal.ofBits_zero_f32,
    zero_add]
  unfold Cert.Spec.deg Cert.Spec.at_
  refine Finset.sum_congr (Finset.filter_congr fun e _ => ?_) fun e _ => ?_
  · rw [val_main_v2_apply, idx_v2]
  · rw [val_main_v0_apply, val_main_cst_apply, Ideal.ofBits_def]; rfl

-- The destination degrees and scales are the same expressions at the other endpoint list.
theorem deg_dst : val_main_v6 (F := Ideal) x8 (ix1 n) = Cert.Spec.deg x8 n := deg_src n

theorem nrm_src : val_main_v9 (F := Ideal) x7 (ix1 n) = Cert.Spec.nrm x7 n := by
  rw [val_main_v9_apply, val_main_v8_apply, deg_src, val_main_v7_apply, val_main_cst_2_apply]
  simp only [Ideal.hostUnary_rsqrt_def, Ideal.maximumf_def, Ideal.ofBits_def]
  unfold Cert.Spec.nrm Cert.Spec.one
  rfl

theorem nrm_dst : val_main_v12 (F := Ideal) x8 (ix1 n) = Cert.Spec.nrm x8 n := nrm_src n

theorem hft_eq : val_main_v15 (F := Ideal) x0 x7 (ix2 n j) = Cert.Spec.hft x0 x7 n j := by
  rw [val_main_v15_apply, val_main_v14_apply, val_main_v13_apply, idx_v13, nrm_src]
  rfl

-- Selecting on the test `w < 0` returns `w` itself when `w`, read signed, is not negative.
theorem keep_of_nonneg (w a : BitVec 32) (h : 0 ≤ w.toInt) : Scalar.select (IntOp.cmpi .slt w 0#32) a w = w := by
  have hlt : w.slt 0#32 = false := by
    simp only [BitVec.slt, BitVec.toInt_zero, decide_eq_false_iff_not, Int.not_lt]
    exact h
  show (if BitVec.ofBool (w.slt 0#32) = 1 then a else w) = w
  rw [hlt]
  rfl

variable (h7 : Cert.Spec.InRange x7)
include h7

theorem start_eq (e : Fin 800000) : val_main_v21 (F := Ideal) x7 (ix2 e (0 : Fin 1)) = x7 (ix1 e) := by
  rw [val_main_v21_apply, idx_v21, val_main_v20_apply, val_main_v17_apply, val_main_v16_apply, val_main_c_apply]
  exact keep_of_nonneg _ _ (h7 e).1

-- Row `e` of the gather is the scaled feature row of the node that edge `e`'s source word names.
theorem gathered (e : Fin 800000) :
    val_main_v22 (F := Ideal) x0 x7 (ix2 e j) = Cert.Spec.hft x0 x7 (Cert.Spec.node (x7 (ix1 e))) j := by
  unfold val_main_v22
  rw [rowGatherDims_eq, rowGather_apply (by decide)]
  have hn : ∀ p, (⟨min (val_main_v21 (F := Ideal) x7 (ix2 e (0 : Fin 1))).toInt.toNat (50000 - 1), p⟩ : Fin 50000)
      = Cert.Spec.node (x7 (ix1 e)) :=
    fun p => Fin.ext (congrArg (fun w : BitVec 32 => min w.toInt.toNat 49999) (start_eq h7 e))
  rw [hn]
  exact hft_eq _ j

theorem agg_eq : val_main_v25 (F := Ideal) x0 x7 x8 (ix2 n j) = Cert.Spec.agg x0 x7 x8 n j := by
  unfold val_main_v25
  rw [rowScatterDims_eq, rowScatterAdd_apply, val_main_v23_apply, val_main_cst_5_apply, Ideal.ofBits_def,
    Ideal.ofBits_zero_f32, zero_add]
  unfold Cert.Spec.agg Cert.Spec.at_
  refine Finset.sum_congr (Finset.filter_congr fun e _ => ?_) fun e _ => ?_
  · rw [val_main_v24_apply, idx_v24]
  · exact gathered j h7 e

theorem pre_eq : val_main_v38 (F := Ideal) x0 x1 x2 x3 x4 x7 x8 (ix2 n j) = Cert.Spec.pre x0 x1 x2 x3 x4 x7 x8 n j := by
  have conv : val_main_v29 (F := Ideal) x0 x1 x7 x8 (ix2 n j)
      = ∑ k : Fin 128, (Cert.Spec.agg x0 x7 x8 n k * Cert.Spec.nrm x8 n) * x1 (ix2 k j) := by
    rw [val_main_v29_apply]
    refine Finset.sum_congr rfl fun k _ => ?_
    rw [lidx_v29, ridx_v29, val_main_v28_apply, agg_eq n k h7, val_main_v27_apply, val_main_v26_apply, idx_v26, nrm_dst]
    rfl
  have lin : val_main_v34 (F := Ideal) x0 x3 (ix2 n j) = ∑ k : Fin 128, x0 (ix2 n k) * x3 (ix2 k j) := by
    rw [val_main_v34_apply]
    exact Finset.sum_congr rfl fun k _ => by rw [lidx_v34, ridx_v34]
  rw [val_main_v38_apply, val_main_v33_apply, val_main_v32_apply, conv, val_main_v31_apply,
    val_main_v30_apply, idx_v30, val_main_v37_apply, lin, val_main_v36_apply, val_main_v35_apply, idx_v35]
  rfl

theorem mean_eq : val_main_v41 (F := Ideal) x0 x1 x2 x3 x4 x7 x8 (ix1 j) = Cert.Spec.mean (Cert.Spec.pre x0 x1 x2 x3 x4 x7 x8) j := by
  have hs : ∑ k : Fin 50000, val_main_v38 (F := Ideal) x0 x1 x2 x3 x4 x7 x8 (idx_main_v39 (ix1 j) k)
      = ∑ n : Fin 50000, Cert.Spec.pre x0 x1 x2 x3 x4 x7 x8 n j :=
    Finset.sum_congr rfl fun k _ => by rw [idx_v39, pre_eq k j h7]
  rw [val_main_v41_apply, val_main_v39_apply, hs, val_main_cst_6_apply, Ideal.ofBits_def, Ideal.ofBits_zero_f32, zero_add,
    val_main_v40_apply, val_main_cst_7_apply]
  rfl

theorem var_eq : val_main_v48 (F := Ideal) x0 x1 x2 x3 x4 x7 x8 (ix1 j) = Cert.Spec.var (Cert.Spec.pre x0 x1 x2 x3 x4 x7 x8) j := by
  have hs : ∑ k : Fin 50000, val_main_v45 (F := Ideal) x0 x1 x2 x3 x4 x7 x8 (idx_main_v46 (ix1 j) k)
      = ∑ n : Fin 50000, (Cert.Spec.pre x0 x1 x2 x3 x4 x7 x8 n j - Cert.Spec.mean (Cert.Spec.pre x0 x1 x2 x3 x4 x7 x8) j)
          * (Cert.Spec.pre x0 x1 x2 x3 x4 x7 x8 n j - Cert.Spec.mean (Cert.Spec.pre x0 x1 x2 x3 x4 x7 x8) j) :=
    Finset.sum_congr rfl fun k _ => by
      rw [idx_v46, val_main_v45_apply, val_main_v44_apply, pre_eq k j h7, val_main_v43_apply,
        val_main_v42_apply, idx_v42, mean_eq j h7]
      rfl
  rw [val_main_v48_apply, val_main_v46_apply, hs, val_main_cst_8_apply, Ideal.ofBits_def, Ideal.ofBits_zero_f32, zero_add,
    val_main_v47_apply, val_main_cst_9_apply]
  rfl

theorem out_eq : val_main_v64 (F := Ideal) x0 x1 x2 x3 x4 x5 x6 x7 x8 (ix2 n j) = Cert.Spec.out x0 x1 x2 x3 x4 x5 x6 x7 x8 n j := by
  rw [val_main_v64_apply, val_main_v63_apply, val_main_v60_apply, val_main_v57_apply, val_main_v51_apply,
    pre_eq n j h7, val_main_v50_apply, val_main_v49_apply, idx_v49, mean_eq j h7,
    val_main_v56_apply, val_main_v55_apply, idx_v55, val_main_v54_apply, val_main_v53_apply, var_eq j h7,
    val_main_v52_apply, val_main_cst_10_apply, val_main_v59_apply, val_main_v58_apply, idx_v58, val_main_v62_apply,
    val_main_v61_apply, idx_v61, val_main_call0_v0_apply, val_main_call0_cst_apply]
  simp only [Ideal.ofBits_def, Ideal.ofBits_zero_f32]
  rfl

end Stages

-- Conclusion: evaluated at `i`, the reference returns `Cert.Spec.out` at row `i 0` and column `i 1`.
theorem result_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 x5 x6 : (⟨S128, .f32⟩ : BufTy).Contents (Elt Ideal)) (x7 x8 : (⟨S800000, .i32⟩ : BufTy).Contents (Elt Ideal))
    (h7 : Cert.Spec.InRange x7) (h8 : Cert.Spec.InRange x8) (i : S50000x128.Idx) :
    Cert.ReferenceIdeal.Read.val_main_v64 (F := Ideal) x0 x1 x2 x3 x4 x5 x6 x7 x8 i
      = Cert.Spec.out x0 x1 x2 x3 x4 x5 x6 x7 x8 (i 0) (i 1) :=
  (congrArg (val_main_v64 (F := Ideal) x0 x1 x2 x3 x4 x5 x6 x7 x8) (eq_ix2 i)).trans
    (out_eq (i 0) (i 1) h7)

end Cert.ReferenceIdeal.RefVal

end
-- ==== Proof.PreDecode.lean ====
import proofs.«421496_j55748675502408_4_alg».proof.Proof.Spec
import proofs.«421496_j55748675502408_4_alg».proof.Pre_finite_inputs
import Idealize.ShloMosaic.Lib.ReduceAll
import Idealize.ShloMosaic.Lib.StableHlo.Predicate

noncomputable section

namespace Cert.Pre_finite_inputs.Decode

open Idealize.ShloMosaic Idealize.ShloMosaic.ValueIdx

instance : Subsingleton S_.Idx := ⟨fun a b => funext fun d => d.elim0⟩

-- If the signed tests `0 ≤ w` and `w < 50000` both give the bit 1, then `w`, read signed, lies in [0, 50000).
theorem word_inRange (w : BitVec 32) (h0 : IntOp.cmpi .sge w 0#32 = 1#1) (h1 : IntOp.cmpi .slt w 50000#32 = 1#1) :
    0 ≤ w.toInt ∧ w.toInt < 50000 := by
  have e0 : (0#32 : BitVec 32).toInt = 0 := by decide
  have e1 : (50000#32 : BitVec 32).toInt = 50000 := by decide
  unfold IntOp.cmpi at h0 h1
  rw [StableHlo.Predicate.ofBool_eq_one_iff] at h0 h1
  simp only [BitVec.sle, BitVec.slt, decide_eq_true_eq, e0, e1] at h0 h1
  exact ⟨h0, h1⟩

def bits (ends : IVec S800000 32) : IVec S800000 1 :=
  fun i => IntOp.andi (IntOp.cmpi .sge (ends i) 0#32) (IntOp.cmpi .slt (ends i) 50000#32)

variable [Facts]

-- If the conjunction of all range bits of a list is 1, each bit is 1, hence each entry of the list is a node number.
theorem inRange_of_all (ends : IVec S800000 32) (init : IVec S_ 1)
    (h : Host.reduce IntOp.andi (bits ends) init Facts.reducesTo_S800000_S_d0 Facts.h_S_ ix0 = 1#1) : Cert.Spec.InRange ends :=
  fun e => (IntOp.andi_eq_one.1 (Host.reduce_andi_all (bits ends) init _ _ ix0 h (ix1 e))).elim (word_inRange _)

variable {F : FTy → Type} [FloatOps F]

-- The last two conjuncts of the precondition are the conjunctions of the range bits of the two endpoint lists.
theorem inRange_of_pre (a0 : FVec F S50000x128 .f32) (a1 : FVec F S128x128 .f32) (a2 : FVec F S128 .f32)
    (a3 : FVec F S128x128 .f32) (a4 a5 a6 : FVec F S128 .f32) (a7 a8 : IVec S800000 32)
    (h : Cert.Pre_finite_inputs.fn (F := F) a0 a1 a2 a3 a4 a5 a6 a7 a8 = fun _ => 1#1) :
    Cert.Spec.InRange a7 ∧ Cert.Spec.InRange a8 := by
  have h0 := congrFun h ix0
  unfold fn fn_part1 at h0
  obtain ⟨h40, h46⟩ := IntOp.andi_eq_one.1 (h0 : IntOp.andi (IntOp.andi _
      (Host.reduce IntOp.andi (bits a7) (fun _ => 1#1) Facts.reducesTo_S800000_S_d0 Facts.h_S_ ix0))
    (Host.reduce IntOp.andi (bits a8) (fun _ => 1#1) Facts.reducesTo_S800000_S_d0 Facts.h_S_ ix0) = 1#1)
  exact ⟨inRange_of_all a7 _ (IntOp.andi_eq_one.1 h40).2, inRange_of_all a8 _ h46⟩

end Cert.Pre_finite_inputs.Decode

end
-- ==== Proof.KiEntry.lean ====
import proofs.«421496_j55748675502408_4_alg».proof.Proof.KiRun

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W7_main_v18 (c : Dev nD) : W7 m c (Proc.devRef .tc main_v18) = (dat0 (Vin0 m) c).arrAt 3 cfg0.N :=
  (StableHlo.after_of_writes_sub hostOps1 _ hostOps1_writes (by decide)).trans (W6_arr m c 3)

theorem W7_main_arg0 (c : Dev nD) : W7 m c (Proc.devRef .tc main_arg0) = m ((c : Thread nD τ).loc main_arg0) :=
  W7_launch m c main_arg0 (by decide) (by decide) (by decide) (by decide) (by decide) (by decide) (by decide)

theorem W7_main_arg1 (c : Dev nD) : W7 m c (Proc.devRef .tc main_arg1) = m ((c : Thread nD τ).loc main_arg1) :=
  W7_launch m c main_arg1 (by decide) (by decide) (by decide) (by decide) (by decide) (by decide) (by decide)

theorem W7_main_arg3 (c : Dev nD) : W7 m c (Proc.devRef .tc main_arg3) = m ((c : Thread nD τ).loc main_arg3) :=
  W7_launch m c main_arg3 (by decide) (by decide) (by decide) (by decide) (by decide) (by decide) (by decide)

theorem W6_main_arg2 (c : Dev nD) : W6 m c (Proc.devRef .tc main_arg2) = m ((c : Thread nD τ).loc main_arg2) :=
  W6_launch m c main_arg2 (by decide) (by decide) (by decide) (by decide) (by decide) (by decide)

theorem W6_main_arg4 (c : Dev nD) : W6 m c (Proc.devRef .tc main_arg4) = m ((c : Thread nD τ).loc main_arg4) :=
  W6_launch m c main_arg4 (by decide) (by decide) (by decide) (by decide) (by decide) (by decide)

theorem W6_main_v14 (c : Dev nD) : W6 m c (Proc.devRef .tc main_v14) = W5 m c (Proc.devRef .tc main_v14) :=
  W6_of_ne m c main_v14 (by decide)

theorem W9_main_v22_0 (c : Dev nD) : W9 m c (Proc.devRef .tc main_v22_0) = (dat1 (Vin1 m) c).arrAt 8 cfg1.N :=
  (StableHlo.after_of_writes_sub hostOps2 _ hostOps2_writes (by decide)).trans (W8_v22_0 m c)

theorem W8_main_v22_1 (c : Dev nD) : W8 m c (Proc.devRef .tc main_v22_1) = (dat1 (Vin1 m) c).arrAt 9 cfg1.N :=
  W8_v22_1 m c

theorem W10_main_v22_0 (c : Dev nD) : W10 m c (Proc.devRef .tc main_v22_0) = (dat1 (Vin1 m) c).arrAt 8 cfg1.N :=
  (W10_arr m c 0).trans <| ((dat2 (Vin2 m) c).arrAt_in 0 rfl _).trans <| (A_eq2 (Vin2 m) c 0).trans (W9_main_v22_0 m c)

theorem W11_main_v22_0 (c : Dev nD) : W11 m c (Proc.devRef .tc main_v22_0) = (dat1 (Vin1 m) c).arrAt 8 cfg1.N :=
  (StableHlo.after_of_writes_sub hostOps3 _ hostOps3_writes (by decide)).trans (W10_main_v22_0 m c)

theorem W10_main_v31 (c : Dev nD) : W10 m c (Proc.devRef .tc main_v31) = (dat2 (Vin2 m) c).arrAt 2 cfg2.N :=
  W10_arr m c 2

theorem W10_main_v29 (c : Dev nD) : W10 m c (Proc.devRef .tc main_v29) = W9 m c (Proc.devRef .tc main_v29) :=
  W10_of_ne m c main_v29 (by decide)

theorem W10_main_arg5 (c : Dev nD) : W10 m c (Proc.devRef .tc main_arg5) = m ((c : Thread nD τ).loc main_arg5) :=
  W10_launch m c main_arg5 (by decide) (by decide) (by decide) (by decide) (by decide) (by decide) (by decide) (by decide)
    (by decide) (by decide) (by decide)

theorem W10_main_arg6 (c : Dev nD) : W10 m c (Proc.devRef .tc main_arg6) = m ((c : Thread nD τ).loc main_arg6) :=
  W10_launch m c main_arg6 (by decide) (by decide) (by decide) (by decide) (by decide) (by decide) (by decide) (by decide)
    (by decide) (by decide) (by decide)

end Cert.KernelIdeal.Hand

end
-- ==== Proof.KiHost.lean ====
import proofs.«421496_j55748675502408_4_alg».proof.Proof.Gen.KernelIdeal.Launch
import proofs.«421496_j55748675502408_4_alg».proof.Proof.Gen.KernelIdeal.Regions
import proofs.«421496_j55748675502408_4_alg».proof.Proof.LibGatherScatter
import proofs.«421496_j55748675502408_4_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.Lib.StableHlo.Predicate

noncomputable section

open scoped BigOperators

namespace Cert.KernelIdeal.HandVal

open Cert.KernelIdeal Cert.KernelIdeal.Gen
open Idealize.ShloMosaic Idealize.ShloMosaic.TcCoe Idealize.ShloMosaic.ValueIdx
open Idealize.ShloMosaic.GatherScatter

-- A word whose signed value lies in [0, 50000) is unchanged by the clamp to [0, 49999].
theorem clamp_word (w : BitVec 32) (h0 : 0 ≤ w.toInt) (h1 : w.toInt < 50000) :
    IntOp.minsi 49999#32 (IntOp.maxsi 0#32 w) = w := by
  have z0 : (0#32 : BitVec 32).toInt = 0 := by decide
  have z1 : (49999#32 : BitVec 32).toInt = 49999 := by decide
  have e0 : IntOp.maxsi 0#32 w = w := if_neg fun hs => by rw [BitVec.slt_iff_toInt_lt, z0] at hs; omega
  rw [e0]
  exact if_neg fun hs => by rw [BitVec.slt_iff_toInt_lt, z1] at hs; omega

def clip (c0 c1 : IVec S_ 32) (x : IVec S800000 32) : IVec S800000 32 :=
  minsi (broadcastInDim S800000 ![] bcast_S_S800000 (id c1))
    (maxsi (broadcastInDim S800000 ![] bcast_S_S800000 (id c0)) x)

theorem clip_inRange (x : IVec S800000 32) (hx : Cert.Spec.InRange x) :
    clip (constantI S_ 32 0#32) (constantI S_ 32 49999#32) x = x := by
  funext i
  obtain ⟨e, rfl⟩ : ∃ e : Fin 800000, i = ix1 e := ⟨i 0, eq_ix1 i⟩
  refine (congrArg₂ IntOp.minsi (broadcastInDim_scalar_apply _ _ _)
    (congrArg₂ IntOp.maxsi (broadcastInDim_scalar_apply _ _ _) rfl)).trans ?_
  exact clamp_word _ (hx e).1 (hx e).2

theorem col_apply (ends : IVec S800000 32) (e : Fin 800000) :
    broadcastInDim S800000x1 ![0] bcast_S800000_S800000x1_0 ends (ix2 e 0) = ends (ix1 e) :=
  broadcastInDim_apply _ _ ends (ix2 e 0) (ix1 e) fun a => by
    match a with
    | ⟨0, _⟩ => exact (if_neg (by show ¬ (800000 : ℕ) = 1; decide)).symm

def count (ends : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 ends)
    (broadcastInDim S800000 ![] bcast_S_S800000 (constant (F := Ideal) S_ .f32 0x3F800000#32))

-- Accumulating a one at each edge's endpoint counts, at node `n`, the edges that end at `n`.
theorem count_apply (ends : IVec S800000 32) (n : Fin 50000) : count ends (ix1 n) = Cert.Spec.deg ends n := by
  refine (vecScatterAdd_apply (φ := .f32) scatter_S50000_S800000x1_S800000_n_0_0_1_wf _ _ _ n).trans ?_
  have hz : broadcastInDim S50000 ![] bcast_S_S50000 (constant (F := Ideal) S_ .f32 0x00000000#32) (ix1 n) = 0 :=
    (broadcastInDim_scalar_apply _ _ _).trans Ideal.ofBits_zero_f32
  rw [hz, zero_add]
  unfold Cert.Spec.deg Cert.Spec.at_
  refine Finset.sum_congr (Finset.filter_congr fun e _ => ?_) fun e _ => ?_
  · rw [col_apply]
  · exact broadcastInDim_scalar_apply _ _ _

theorem hostRsqrt_apply {s : Shape} {φ : FTy} (v : FVec Ideal s φ) (i : s.Idx) : Host.rsqrt v i = Ideal.rsqrt (v i) := rfl

def scale (ends : IVec S800000 32) : FVec Ideal S50000 .f32 :=
  Host.rsqrt (maximumf (count ends)
    (broadcastInDim S50000 ![] bcast_S_S50000 (constant (F := Ideal) S_ .f32 0x3F800000#32)))

theorem scale_apply (ends : IVec S800000 32) (n : Fin 50000) : scale ends (ix1 n) = Cert.Spec.nrm ends n := by
  have ho : broadcastInDim S50000 ![] bcast_S_S50000 (constant (F := Ideal) S_ .f32 0x3F800000#32) (ix1 n)
      = Cert.Spec.one := broadcastInDim_scalar_apply _ _ _
  unfold scale Cert.Spec.nrm
  rw [hostRsqrt_apply, maximumf_apply, count_apply, ho]

def hfeat (x : FVec Ideal S50000x128 .f32) (ends : IVec S800000 32) : FVec Ideal S50000x128 .f32 :=
  mulf x (broadcastInDim S50000x128 ![0, 1] bcast_S50000x1_S50000x128_0_1
    (broadcastInDim S50000x1 ![0] bcast_S50000_S50000x1_0 (scale ends)))

theorem hfeat_apply (x : FVec Ideal S50000x128 .f32) (ends : IVec S800000 32) (n : Fin 50000) (j : Fin 128) :
    hfeat x ends (ix2 n j) = Cert.Spec.hft x ends n j :=
  congrArg (x (ix2 n j) * ·) ((StableHlo.Predicate.bcast_rows _ _ (scale ends) n j).trans
    ((congrArg (scale ends) (eq_ix1 _)).trans (scale_apply ends n)))

theorem row_apply (o : Nat) (X : FVec Ideal S16x128 .f32) (h : S16x128.Slices ![o, 0] S1x128) (k : Fin 16) (hk : k.val = o)
    (j : Fin 128) :
    shapeCast S128 (extractStridedSlice S1x128 ![o, 0] X h) shapeCasts_S1x128_S128 (ix1 j) = X (ix2 k j) :=
  (shapeCast_1a_a_apply _ _ j).trans (slice2_axis0_apply o X h 0 j k (by rw [hk]; rfl))

-- The block's rows 0 and 8 carry the two halves of each column's total; adding them and dividing by 50000.0 gives the mean.
def colMean (X : FVec Ideal S16x128 .f32) : FVec Ideal S128 .f32 :=
  Host.divf
    (addf (shapeCast S128 (extractStridedSlice S1x128 ![0, 0] X slices_S16x128_S1x128_0_0) shapeCasts_S1x128_S128)
      (shapeCast S128 (extractStridedSlice S1x128 ![8, 0] X slices_S16x128_S1x128_8_0) shapeCasts_S1x128_S128))
    (broadcastInDim S128 ![] bcast_S_S128 (constant (F := Ideal) S_ .f32 0x47435000#32))

abbrev rowsMean (X : FVec Ideal S16x128 .f32) (j : Fin 128) : EReal := Ideal.div (X (ix2 0 j) + X (ix2 8 j)) Cert.Spec.cnt

abbrev rowsIstd (X : FVec Ideal S16x128 .f32) (j : Fin 128) : EReal := Ideal.rsqrt (rowsMean X j + Cert.Spec.eps)

theorem colMean_apply (X : FVec Ideal S16x128 .f32) (j : Fin 128) : colMean X (ix1 j) = rowsMean X j :=
  congrArg₂ Ideal.div
    (congrArg₂ (· + ·) (row_apply 0 X slices_S16x128_S1x128_0_0 0 rfl j) (row_apply 8 X slices_S16x128_S1x128_8_0 8 rfl j))
    (broadcastInDim_scalar_apply _ _ _)

def colIstd (X : FVec Ideal S16x128 .f32) : FVec Ideal S128 .f32 :=
  Host.rsqrt (addf (colMean X) (broadcastInDim S128 ![] bcast_S_S128 (constant (F := Ideal) S_ .f32 0x3727C5AC#32)))

theorem colIstd_apply (X : FVec Ideal S16x128 .f32) (j : Fin 128) : colIstd X (ix1 j) = rowsIstd X j :=
  congrArg Ideal.rsqrt (congrArg₂ (· + ·) (colMean_apply X j) (broadcastInDim_scalar_apply _ _ _))

-- `pre4 W`: the valuation once both endpoint lists are clamped; `pre0 W`: the valuation on entry to the first region.
abbrev pre4 (W : Valuation τ sig (Elt Ideal)) : Valuation τ sig (Elt Ideal) :=
  StableHlo.after hostOps0_3 (StableHlo.after hostOps0_2 (StableHlo.after hostOps0_1 (StableHlo.after hostOps0 W)))

abbrev pre0 (W : Valuation τ sig (Elt Ideal)) : Valuation τ sig (Elt Ideal) :=
  StableHlo.after hostOps0_4 (pre4 W)

variable (W : Valuation τ sig (Elt Ideal))

-- Endpoint words that name nodes pass the clamp unchanged.
theorem pre4_v0 (h7 : Cert.Spec.InRange (W main_arg7 : IVec S800000 32)) : pre4 W main_v0 = W main_arg7 := by
  refine Eq.trans ?_ (clip_inRange _ h7)
  dsimp only [pre4]
  rw [StableHlo.after_of_writes_sub hostOps0_3 _ hostOps0_3_writes (by decide),
    StableHlo.after_of_writes_sub hostOps0_2 _ hostOps0_2_writes (by decide)]
  dsimp only [hostOps0_1, hostOps0]
  after_results
  rfl

theorem pre4_v1 (h8 : Cert.Spec.InRange (W main_arg8 : IVec S800000 32)) : pre4 W main_v1 = W main_arg8 := by
  refine Eq.trans ?_ (clip_inRange _ h8)
  have e8 : StableHlo.after hostOps0_1 (StableHlo.after hostOps0 W) main_arg8 = W main_arg8 :=
    (StableHlo.after_of_writes_sub hostOps0_1 _ hostOps0_1_writes (by decide)).trans
      (StableHlo.after_of_writes_sub hostOps0 _ hostOps0_writes (by decide))
  dsimp only [pre4]
  rw [← e8]
  generalize StableHlo.after hostOps0_1 (StableHlo.after hostOps0 W) = W2
  dsimp only [hostOps0_3, hostOps0_2]
  after_results
  rfl

theorem pre4_arg0 : pre4 W main_arg0 = W main_arg0 :=
  (StableHlo.after_of_writes_sub hostOps0_3 _ hostOps0_3_writes (by decide)).trans <|
    (StableHlo.after_of_writes_sub hostOps0_2 _ hostOps0_2_writes (by decide)).trans <|
      (StableHlo.after_of_writes_sub hostOps0_1 _ hostOps0_1_writes (by decide)).trans
        (StableHlo.after_of_writes_sub hostOps0 _ hostOps0_writes (by decide))

theorem ops04_v14 (W4 : Valuation τ sig (Elt Ideal)) :
    (StableHlo.after hostOps0_4 W4 main_v14 : FVec Ideal S50000 .f32) = scale (W4 main_v1 : IVec S800000 32) := by
  dsimp only [hostOps0_4]
  after_results
  rfl

theorem ops04_v17 (W4 : Valuation τ sig (Elt Ideal)) :
    (StableHlo.after hostOps0_4 W4 main_v17 : FVec Ideal S50000x128 .f32)
      = hfeat (W4 main_arg0 : FVec Ideal S50000x128 .f32) (W4 main_v0 : IVec S800000 32) := by
  dsimp only [hostOps0_4]
  after_results
  rfl

theorem pre0_v0 (h7 : Cert.Spec.InRange (W main_arg7 : IVec S800000 32)) : pre0 W main_v0 = W main_arg7 :=
  (StableHlo.after_of_writes_sub hostOps0_4 _ hostOps0_4_writes (by decide)).trans
    (pre4_v0 W h7)

theorem pre0_v1 (h8 : Cert.Spec.InRange (W main_arg8 : IVec S800000 32)) : pre0 W main_v1 = W main_arg8 :=
  (StableHlo.after_of_writes_sub hostOps0_4 _ hostOps0_4_writes (by decide)).trans
    (pre4_v1 W h8)

theorem pre0_v17 (h7 : Cert.Spec.InRange (W main_arg7 : IVec S800000 32)) (n : Fin 50000) (j : Fin 128) :
    (pre0 W main_v17 : FVec Ideal S50000x128 .f32) (ix2 n j)
      = Cert.Spec.hft (W main_arg0 : FVec Ideal S50000x128 .f32) (W main_arg7 : IVec S800000 32) n j := by
  have e := ops04_v17 (pre4 W)
  rw [pre4_arg0 W, pre4_v0 W h7] at e
  exact (congrFun e (ix2 n j)).trans (hfeat_apply _ _ n j)

theorem pre0_v14 (h8 : Cert.Spec.InRange (W main_arg8 : IVec S800000 32)) (n : Fin 50000) :
    (pre0 W main_v14 : FVec Ideal S50000 .f32) (ix1 n) = Cert.Spec.nrm (W main_arg8 : IVec S800000 32) n := by
  have e := ops04_v14 (pre4 W)
  rw [pre4_v1 W h8] at e
  exact (congrFun e (ix1 n)).trans (scale_apply _ n)

-- Entry `(0, j)` of the 1×128 reshape of a vector is the vector's entry `j`.
theorem row_of {X : FVec Ideal S1x128 .f32} {v : FVec Ideal S128 .f32}
    (e : X = shapeCast S1x128 v shapeCasts_S128_S1x128) (j : Fin 128) : X (ix2 0 j) = v (ix1 j) :=
  (congrFun e (ix2 0 j)).trans (shapeCast_a_1a_apply _ _ 0 j)

theorem host1_v19 (j : Fin 128) :
    (StableHlo.after hostOps1 W main_v19 : FVec Ideal S1x128 .f32) (ix2 0 j) = (W main_arg2 : FVec Ideal S128 .f32) (ix1 j) :=
  row_of (by dsimp only [hostOps1]; after_results; rfl) j

theorem host1_v20 (j : Fin 128) :
    (StableHlo.after hostOps1 W main_v20 : FVec Ideal S1x128 .f32) (ix2 0 j) = (W main_arg4 : FVec Ideal S128 .f32) (ix1 j) :=
  row_of (by dsimp only [hostOps1]; after_results; rfl) j

theorem host1_v21 (n : Fin 50000) :
    (StableHlo.after hostOps1 W main_v21 : FVec Ideal S50000x1 .f32) (ix2 n 0) = (W main_v14 : FVec Ideal S50000 .f32) (ix1 n) := by
  have e : (StableHlo.after hostOps1 W main_v21 : FVec Ideal S50000x1 .f32)
      = shapeCast S50000x1 (W main_v14 : FVec Ideal S50000 .f32) shapeCasts_S50000_S50000x1 := by
    dsimp only [hostOps1]; after_results; rfl
  refine (congrFun e (ix2 n 0)).trans (shapeCast_apply _ _ (ix2 n 0) (ix1 n) ?_)
  rw [Shape.rowMajor_val_two, Shape.rowMajor_val_one]
  show n.val = n.val * 1 + 0
  omega

theorem host2_v29 (j : Fin 128) :
    (StableHlo.after hostOps2 W main_v29 : FVec Ideal S128 .f32) (ix1 j)
      = rowsMean (W main_v22_1) j :=
  (congrFun (by dsimp only [hostOps2]; after_results; rfl : _ = colMean (W main_v22_1 : FVec Ideal S16x128 .f32)) (ix1 j)).trans (colMean_apply _ j)

theorem host2_v30 (j : Fin 128) :
    (StableHlo.after hostOps2 W main_v30 : FVec Ideal S1x128 .f32) (ix2 0 j)
      = rowsMean (W main_v22_1) j :=
  (row_of (by dsimp only [hostOps2]; after_results; rfl) j).trans (colMean_apply (W main_v22_1) j)

theorem host3_v42 (j : Fin 128) :
    (StableHlo.after hostOps3 W main_v42 : FVec Ideal S1x128 .f32) (ix2 0 j) = (W main_v29 : FVec Ideal S128 .f32) (ix1 j) :=
  row_of (by dsimp only [hostOps3]; after_results; rfl) j

theorem host3_v43 (j : Fin 128) :
    (StableHlo.after hostOps3 W main_v43 : FVec Ideal S1x128 .f32) (ix2 0 j)
      = rowsIstd (W main_v31) j :=
  (row_of (by dsimp only [hostOps3]; after_results; rfl) j).trans (colIstd_apply (W main_v31) j)

theorem host3_v44 (j : Fin 128) :
    (StableHlo.after hostOps3 W main_v44 : FVec Ideal S1x128 .f32) (ix2 0 j) = (W main_arg5 : FVec Ideal S128 .f32) (ix1 j) :=
  row_of (by dsimp only [hostOps3]; after_results; rfl) j

theorem host3_v45 (j : Fin 128) :
    (StableHlo.after hostOps3 W main_v45 : FVec Ideal S1x128 .f32) (ix2 0 j) = (W main_arg6 : FVec Ideal S128 .f32) (ix1 j) :=
  row_of (by dsimp only [hostOps3]; after_results; rfl) j

end Cert.KernelIdeal.HandVal

end
-- ==== Proof.SumSplit.lean ====
import Mathlib.Algebra.BigOperators.Fin
import Mathlib.Data.Fintype.BigOperators
import Mathlib.Logic.Equiv.Fin.Basic
import proofs.«421496_j55748675502408_4_alg».proof.Proof.Spec

open scoped BigOperators

namespace Cert.SumSplit

variable {M : Type*} [AddCommMonoid M]

theorem sum_halves (f : Fin 50000 → M) :
    ∑ n, f n = (∑ n : Fin 25000, f ⟨n.val, by omega⟩) + ∑ n : Fin 25000, f ⟨25000 + n.val, by omega⟩ :=
  Fin.sum_univ_add (a := 25000) (b := 25000) f

theorem sum_filter_halves (p : Fin 800000 → Prop) [DecidablePred p] (g : Fin 800000 → M) :
    ∑ e ∈ Finset.univ.filter p, g e
      = (∑ e ∈ Finset.univ.filter (fun e : Fin 400000 => p ⟨e.val, by omega⟩), g ⟨e.val, by omega⟩)
        + ∑ e ∈ Finset.univ.filter (fun e : Fin 400000 => p ⟨400000 + e.val, by omega⟩), g ⟨400000 + e.val, by omega⟩ := by
  simp only [Finset.sum_filter]
  exact Fin.sum_univ_add (a := 400000) (b := 400000) fun e => if p e then g e else 0

theorem blk_lt {a b : ℕ} (t : Fin a) (r : Fin b) : b * t.val + r.val < a * b :=
  calc b * t.val + r.val < b * (t.val + 1) := Nat.add_lt_add_left r.isLt _
    _ ≤ b * a := Nat.mul_le_mul_left b t.isLt
    _ = a * b := Nat.mul_comm b a

-- Numbering `Fin (a * b)` by pairs (block `t`, place `r`) turns the sum into a double sum.
theorem sum_blocks (a b : ℕ) (f : Fin (a * b) → M) :
    ∑ i, f i = ∑ t : Fin a, ∑ r : Fin b, f ⟨b * t.val + r.val, blk_lt t r⟩ := by
  rw [← finProdFinEquiv.sum_comp f, Fintype.sum_prod_type]
  exact Finset.sum_congr rfl fun t _ => Finset.sum_congr rfl fun r _ => congrArg f (Fin.ext (Nat.add_comm _ _))

theorem sum_blocks5 (f : Fin 25000 → M) :
    ∑ n, f n = ∑ t : Fin 5, ∑ r : Fin 5000, f ⟨5000 * t.val + r.val, by omega⟩ :=
  sum_blocks 5 5000 f

theorem sum_filter_blocks (p : Fin 400000 → Prop) [DecidablePred p] (g : Fin 400000 → M) :
    ∑ e ∈ Finset.univ.filter p, g e
      = ∑ i : Fin 3125, ∑ u ∈ Finset.univ.filter (fun u : Fin 128 => p ⟨128 * i.val + u.val, by omega⟩),
          g ⟨128 * i.val + u.val, by omega⟩ := by
  simp only [Finset.sum_filter]
  exact sum_blocks 3125 128 fun e => if p e then g e else 0

theorem sum_filter_trips (q : Fin 128 → Prop) [DecidablePred q] (g : Fin 128 → M) :
    ∑ u ∈ Finset.univ.filter q, g u
      = ∑ k : Fin 16, ∑ u ∈ Finset.univ.filter (fun u : Fin 8 => q ⟨8 * k.val + u.val, by omega⟩),
          g ⟨8 * k.val + u.val, by omega⟩ := by
  simp only [Finset.sum_filter]
  exact sum_blocks 16 8 fun e => if q e then g e else 0

-- For a 32-bit word with non-negative signed value, the signed and unsigned values agree.
theorem toInt_eq_toNat (w : BitVec 32) (h0 : 0 ≤ w.toInt) : w.toInt = (w.toNat : Int) := by
  have hw := BitVec.toInt_eq_toNat_cond w
  have := w.isLt
  split at hw <;> omega

theorem toInt_eq_iff (w : BitVec 32) (h0 : 0 ≤ w.toInt) (n : ℕ) : w.toInt = (n : Int) ↔ w.toNat = n := by
  have := toInt_eq_toNat w h0
  omega

theorem min_toNat (w : BitVec 32) (h0 : 0 ≤ w.toInt) (h1 : w.toInt < 50000) : min w.toNat 49999 = w.toNat := by
  have := toInt_eq_toNat w h0
  omega

theorem node_val (w : BitVec 32) (h0 : 0 ≤ w.toInt) (h1 : w.toInt < 50000) : (Cert.Spec.node w).val = w.toNat := by
  have := toInt_eq_toNat w h0
  show min w.toInt.toNat 49999 = w.toNat
  omega

end Cert.SumSplit
-- ==== Proof.KiVal2.lean ====
import proofs.«421496_j55748675502408_4_alg».proof.Proof.KiR2
import proofs.«421496_j55748675502408_4_alg».proof.Proof.SumSplit
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem lift2_ix (h : S5000x128.Reduces [0] S128) (j : Fin 128) (k : Fin (S5000x128.size 0)) :
    h.lift (ix1 j) k = ix2 (⟨k.val, k.isLt⟩ : Fin 5000) j := by
  funext a; apply Fin.ext
  fin_cases a <;> rfl

theorem row2_emb (j : Fin 128) : row2.emb (ix2 (0 : Fin 1) j) = ix2 (0 : Fin 8) j := by
  funext a; apply Fin.ext
  match a with
  | ⟨0, _⟩ => rfl
  | ⟨1, _⟩ => show 0 + 1 * j.val = j.val; omega

theorem upd2_row0 (x0 : FVec Ideal S5000x128 .f32) (x1 : FVec Ideal S1x128 .f32) (xo : FVec Ideal S8x128 .f32) (j : Fin 128) :
    upd2 (F := Ideal) x0 x1 xo (ix2 (0 : Fin 8) j)
      = xo (ix2 (0 : Fin 8) j) + ∑ r : Fin 5000, (x0 (ix2 r j) - x1 (ix2 (0 : Fin 1) j)) * (x0 (ix2 r j) - x1 (ix2 (0 : Fin 1) j)) := by
  unfold upd2
  rw [← row2_emb j, Rect.overlay_emb]
  unfold k2_pay2
  simp only [shapeCast_self]
  rw [addf_apply, shapeCast_a_1a_apply]
  refine congrArg₂ (· + ·) rfl ?_
  refine (Ideal.multiReduction_add_single _ _ reduces_S5000x128_S128 _ _ (ix1 j)).trans ?_
  refine Finset.sum_congr rfl fun k _ => ?_
  rw [lift2_ix, mulf_apply, subf_apply, broadcastTo_1b_ab_apply]
  rfl

abbrev xblk2 (c : Dev nD) (t : Fin cfg2.N) : FVec Ideal S5000x128 .f32 := iblk2 V c 0 t

abbrev mblk2 (c : Dev nD) (t : Fin cfg2.N) : FVec Ideal S1x128 .f32 := iblk2 V c 1 t

abbrev oblk2 (c : Dev nD) (t : Fin cfg2.N) : FVec Ideal S8x128 .f32 := (dat2 V c).after 2 t

abbrev xarr2 (c : Dev nD) : FVec Ideal S50000x128 .f32 := V c main_v22_0

abbrev marr2 (c : Dev nD) : FVec Ideal S1x128 .f32 := V c main_v30

abbrev oarr2 (c : Dev nD) : FVec Ideal S16x128 .f32 := (dat2 V c).arrAt 2 cfg2.N

theorem xblk2_apply (c : Dev nD) (t : Fin cfg2.N) (r : Fin 5000) (j : Fin 128) (hr : 5000 * t.val + r.val < 50000) :
    xblk2 V c t (ix2 r j) = xarr2 V c (ix2 (⟨5000 * t.val + r.val, hr⟩ : Fin 50000) j) := by
  have hi : win2_0.index t 0 = t.val ∧ win2_0.index t 1 = 0 := by
    rcases fin_N2 t with rfl | rfl | rfl | rfl | rfl | rfl | rfl | rfl | rfl | rfl <;> decide
  unfold xblk2 xarr2 iblk2
  rw [View.read_apply]
  show V c main_v22_0 _ = V c main_v22_0 _
  congr 1
  funext a
  apply Fin.ext
  match a with
  | ⟨0, _⟩ => show win2_0.index t 0 * 5000 + 1 * r.val = 5000 * t.val + r.val; rw [hi.1]; omega
  | ⟨1, _⟩ => show win2_0.index t 1 * 128 + 1 * j.val = j.val; rw [hi.2]; omega

theorem mblk2_apply (c : Dev nD) (t : Fin cfg2.N) (j : Fin 128) :
    mblk2 V c t (ix2 (0 : Fin 1) j) = marr2 V c (ix2 (0 : Fin 1) j) := by
  have hi : win2_1.index t 0 = 0 ∧ win2_1.index t 1 = 0 := by
    rcases fin_N2 t with rfl | rfl | rfl | rfl | rfl | rfl | rfl | rfl | rfl | rfl <;> decide
  unfold mblk2 marr2 iblk2
  rw [View.read_apply]
  show V c main_v30 _ = V c main_v30 _
  congr 1
  funext a
  apply Fin.ext
  match a with
  | ⟨0, _⟩ => show win2_1.index t 0 * 1 + 1 * 0 = 0; rw [hi.1]
  | ⟨1, _⟩ => show win2_1.index t 1 * 128 + 1 * j.val = j.val; rw [hi.2]; omega

def col2 (c : Dev nD) (t : Fin cfg2.N) (j : Fin 128) : EReal :=
  ∑ r : Fin 5000, (xblk2 V c t (ix2 r j) - mblk2 V c t (ix2 (0 : Fin 1) j)) * (xblk2 V c t (ix2 r j) - mblk2 V c t (ix2 (0 : Fin 1) j))

theorem zero2_apply (y : S8x128.Idx) : (zero2 (F := Ideal) : FVec Ideal S8x128 .f32) y = 0 := by
  show Ideal.ofBits .f32 0x00000000#32 = 0
  exact Ideal.ofBits_zero_f32

theorem row0_reset (c : Dev nD) (t : Fin cfg2.N) (h0 : t.val % 5 = 0) (j : Fin 128) :
    oblk2 V c t (ix2 (0 : Fin 8) j) = col2 V c t j := by
  unfold oblk2
  rw [after2_2_reset V c t h0, upd2_row0, zero2_apply, zero_add]
  rfl

theorem row0_step (c : Dev nD) (t t' : Fin cfg2.N) (h0 : ¬t.val % 5 = 0) (hp : t'.val = t.val - 1) (j : Fin 128) :
    oblk2 V c t (ix2 (0 : Fin 8) j) = oblk2 V c t' (ix2 (0 : Fin 8) j) + col2 V c t j := by
  obtain rfl : t' = ⟨t.val - 1, Nat.lt_of_le_of_lt (Nat.sub_le _ _) t.isLt⟩ := Fin.ext hp
  unfold oblk2
  rw [after2_2_step V c t h0, upd2_row0]
  rfl

abbrev pt2 (h : Fin 2) (i : Fin 5) : Fin cfg2.N :=
  ⟨5 * h.val + i.val, by have := h.isLt; have := i.isLt; rw [show cfg2.N = 10 from N_2]; omega⟩

theorem hdisj2 : ∀ t t' : Fin cfg2.N, (cfg2.win 2).flush t = true → (cfg2.win 2).flush t' = true → t ≠ t' →
    (cfg2.win 2).index t ≠ (cfg2.win 2).index t' :=
  (by decide +kernel : ∀ t t' : Fin grid2.N, win2_2.flush t = true → win2_2.flush t' = true → t ≠ t' → win2_2.index t ≠ win2_2.index t')

theorem arrAt2_emb (c : Dev nD) (t : Fin cfg2.N) (hf : (cfg2.win 2).flush t = true) (y : S8x128.Idx) :
    oarr2 V c (((cfg2.win 2).blk t).view.emb y) = oblk2 V c t y := by
  unfold oarr2 oblk2
  rw [(dat2 V c).arrAt_emb_eq_flushed 2 (fun t t' hf hf' hne => Pipeline.Window.disjoint_blk _ (hdisj2 t t' hf hf' hne)) t hf y]
  rfl

-- Core `h` runs points `5 h … 5 h + 4`: the first resets row 0 to its addend, each later one adds its own.
theorem row0_fold (c : Dev nD) (h : Fin 2) (j : Fin 128) : ∀ (i : ℕ) (hi : i < 5),
    oblk2 V c (pt2 h ⟨i, hi⟩) (ix2 (0 : Fin 8) j) = ∑ s : Fin (i + 1), col2 V c (pt2 h ⟨s.val, by have := s.isLt; omega⟩) j
  | 0, hi => by
    rw [row0_reset V c (pt2 h ⟨0, hi⟩) (by show (5 * h.val + 0) % 5 = 0; omega), Fin.sum_univ_castSucc, Fin.sum_univ_zero, zero_add]
    rfl
  | i + 1, hi => by
    rw [row0_step V c (pt2 h ⟨i + 1, hi⟩) (pt2 h ⟨i, Nat.lt_of_succ_lt hi⟩) (by show ¬(5 * h.val + (i + 1)) % 5 = 0; omega)
      (by show 5 * h.val + i = 5 * h.val + (i + 1) - 1; omega), row0_fold c h j i (Nat.lt_of_succ_lt hi), Fin.sum_univ_castSucc (n := i + 1)]
    rfl

theorem emb2 (h : Fin 2) (j : Fin 128) :
    ((cfg2.win 2).blk (pt2 h 4)).view.emb (ix2 (0 : Fin 8) j) = ix2 (⟨8 * h.val, by have := h.isLt; omega⟩ : Fin 16) j := by
  funext a; apply Fin.ext
  rw [show ((cfg2.win 2).blk (pt2 h 4)).view.emb (ix2 (0 : Fin 8) j) a = ((cfg2.win 2).rect (pt2 h 4)).emb (ix2 (0 : Fin 8) j) a from rfl,
    Pipeline.Window.rect_emb_val]
  revert a
  fin_cases h <;> intro a <;> match a with
    | ⟨0, _⟩ => rfl
    | ⟨1, _⟩ => show 0 * 128 + j.val = j.val; omega

theorem col2_eq (c : Dev nD) (t : Fin cfg2.N) (j : Fin 128) (ht : t.val < 10) :
    col2 V c t j = ∑ r : Fin 5000, (xarr2 V c (ix2 (⟨5000 * t.val + r.val, by omega⟩ : Fin 50000) j) - marr2 V c (ix2 (0 : Fin 1) j))
      * (xarr2 V c (ix2 (⟨5000 * t.val + r.val, by omega⟩ : Fin 50000) j) - marr2 V c (ix2 (0 : Fin 1) j)) := by
  unfold col2
  refine Finset.sum_congr rfl fun r _ => ?_
  rw [xblk2_apply V c t r j (by omega), mblk2_apply]

theorem sq_congr2 (c : Dev nD) (j : Fin 128) (a b : Fin 5000 → Fin 50000) (hab : ∀ r, (a r).val = (b r).val) :
    ∑ r : Fin 5000, (xarr2 V c (ix2 (a r) j) - marr2 V c (ix2 (0 : Fin 1) j)) * (xarr2 V c (ix2 (a r) j) - marr2 V c (ix2 (0 : Fin 1) j))
      = ∑ r : Fin 5000, (xarr2 V c (ix2 (b r) j) - marr2 V c (ix2 (0 : Fin 1) j)) * (xarr2 V c (ix2 (b r) j) - marr2 V c (ix2 (0 : Fin 1) j)) := by
  rw [show a = b from funext fun r => Fin.ext (hab r)]

theorem arrAt2_2 (c : Dev nD) (h : Fin 2) (j : Fin 128) :
    oarr2 V c (ix2 (⟨8 * h.val, by omega⟩ : Fin 16) j)
      = ∑ n : Fin 25000, (xarr2 V c (ix2 (⟨25000 * h.val + n.val, by omega⟩ : Fin 50000) j) - marr2 V c (ix2 (0 : Fin 1) j))
          * (xarr2 V c (ix2 (⟨25000 * h.val + n.val, by omega⟩ : Fin 50000) j) - marr2 V c (ix2 (0 : Fin 1) j)) := by
  rw [← emb2 h j, arrAt2_emb V c (pt2 h 4) ((flush2_2 _).mpr (by show (5 * h.val + 4) % 5 = 4; omega))]
  refine (row0_fold V c h j 4 (by omega)).trans ?_
  rw [Cert.SumSplit.sum_blocks5]
  refine Finset.sum_congr rfl fun i _ => ?_
  have hi : (pt2 h i).val < 10 := by have := h.isLt; have := i.isLt; show 5 * h.val + i.val < 10; omega
  rw [col2_eq V c (pt2 h i) j hi]
  exact sq_congr2 V c j _ _ fun r => by
    show 5000 * (5 * h.val + i.val) + r.val = 25000 * h.val + (5000 * i.val + r.val); omega

end Cert.KernelIdeal.HandVal

end
-- ==== Proof.KiVal3.lean ====
import proofs.«421496_j55748675502408_4_alg».proof.Proof.KiR3
import proofs.«421496_j55748675502408_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

theorem zero_word : (Scalar.ofBits (F := Ideal) .f32 0x00000000#32 : EReal) = 0 := Ideal.ofBits_zero_f32

abbrev G3 (a : S50000x128.Idx → EReal) (mu istd g b : S1x128.Idx → EReal) : S50000x128.Idx → EReal := fun j =>
  max ((((a j - mu (ix2 0 (j 1))) * istd (ix2 0 (j 1))) * g (ix2 0 (j 1))) + b (ix2 0 (j 1))) (0 : EReal)

theorem pay3_apply (x0 : Vec Ideal S5000x128 .f32) (x1 x2 x3 x4 : Vec Ideal S1x128 .f32) (p : Fin 5000) (q : Fin 128) :
    k3_pay1 x0 x1 x2 x3 x4 (ix2 p q)
      = max ((((x0 (ix2 p q) - x1 (ix2 0 q)) * x2 (ix2 0 q)) * x3 (ix2 0 q)) + x4 (ix2 0 q)) (0 : EReal) := by
  unfold k3_pay1
  simp only [maximumf_apply, addf_apply, mulf_apply, subf_apply, broadcast_apply, shapeCast_self, broadcastTo_1b_ab_apply, zero_word]

theorem pay3_at (x0 : Vec Ideal S5000x128 .f32) (x1 x2 x3 x4 : Vec Ideal S1x128 .f32) (y : S5000x128.Idx)
    (p : Fin 5000) (q : Fin 128) (hy : y = ix2 p q)
    (a mu istd g b : EReal) (h0 : x0 y = a) (h1 : x1 (ix2 0 q) = mu) (h2 : x2 (ix2 0 q) = istd)
    (h3 : x3 (ix2 0 q) = g) (h4 : x4 (ix2 0 q) = b) :
    k3_pay1 x0 x1 x2 x3 x4 y = max ((((a - mu) * istd) * g) + b) (0 : EReal) := by
  subst hy
  rw [pay3_apply, h0, h1, h2, h3, h4]

theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem flushed3_eq (c : Dev nD) (t : Fin cfg3.N) :
    (dat3 (F := Ideal) V c).flushed 5 t = ((cfg3.win 5).blk t).view.read (Elt Ideal)
      (G3 (V c main_v22_0) (V c main_v42) (V c main_v43) (V c main_v44) (V c main_v45)) := by
  show (cfg3.win 5).cut (grid3.coords t) ((dat3 (F := Ideal) V c).after 5 t) = _
  rw [after3_5]
  unfold out3_5
  rw [View.canon_unit_zero hz3]
  simp only [View.ld_unit_zero (S := S5000x128) hz3, View.ld_unit_zero (S := S1x128) hz3]
  obtain ⟨e0, e1, e2, e3, e4, e5, e6, e7, e8, e9, e10, e11⟩ := idx_facts3 t
  funext y
  have hy0 : (y 0).val < 5000 := (y 0).isLt
  have hy1 : (y 1).val < 128 := (y 1).isLt
  refine pay3_at _ _ _ _ _ y (y 0) (y 1) (eq_ix2 (n0 := 5000) (n1 := 128) y) _ _ _ _ _ ?_ ?_ ?_ ?_ ?_
  · exact congrArg (V c main_v22_0) (funext (Fin.forall_fin_two.2 ⟨
      Fin.ext (by show win3_0.index t (0 : Fin 2) * 5000 + 1 * (y 0).val = win3_5.index t (0 : Fin 2) * 5000 + 1 * (y 0).val; omega),
      Fin.ext (by show win3_0.index t (1 : Fin 2) * 128 + 1 * (y 1).val = win3_5.index t (1 : Fin 2) * 128 + 1 * (y 1).val; omega)⟩))
  · exact congrArg (V c main_v42) (funext (Fin.forall_fin_two.2 ⟨
      Fin.ext (by show win3_1.index t (0 : Fin 2) * 1 + 1 * 0 = 0; omega),
      Fin.ext (by show win3_1.index t (1 : Fin 2) * 128 + 1 * (y 1).val = win3_5.index t (1 : Fin 2) * 128 + 1 * (y 1).val; omega)⟩))
  · exact congrArg (V c main_v43) (funext (Fin.forall_fin_two.2 ⟨
      Fin.ext (by show win3_2.index t (0 : Fin 2) * 1 + 1 * 0 = 0; omega),
      Fin.ext (by show win3_2.index t (1 : Fin 2) * 128 + 1 * (y 1).val = win3_5.index t (1 : Fin 2) * 128 + 1 * (y 1).val; omega)⟩))
  · exact congrArg (V c main_v44) (funext (Fin.forall_fin_two.2 ⟨
      Fin.ext (by show win3_3.index t (0 : Fin 2) * 1 + 1 * 0 = 0; omega),
      Fin.ext (by show win3_3.index t (1 : Fin 2) * 128 + 1 * (y 1).val = win3_5.index t (1 : Fin 2) * 128 + 1 * (y 1).val; omega)⟩))
  · exact congrArg (V c main_v45) (funext (Fin.forall_fin_two.2 ⟨
      Fin.ext (by show win3_4.index t (0 : Fin 2) * 1 + 1 * 0 = 0; omega),
      Fin.ext (by show win3_4.index t (1 : Fin 2) * 128 + 1 * (y 1).val = win3_5.index t (1 : Fin 2) * 128 + 1 * (y 1).val; omega)⟩))

theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have ht : t.val = (i 0).val / 5000 := rfl
  obtain ⟨e0, e1, e2, e3, e4, e5, e6, e7, e8, e9, e10, e11⟩ := idx_facts3 t
  refine ⟨t, flush3_5 t, ?_⟩
  show i ∈ ((View.whole main_v46).slice (win3_5.rect t)).set
  rw [View.set_slice_whole, Rect.mem_set_unit]
  exact Fin.forall_fin_two.2 ⟨
    by show win3_5.index t (0 : Fin 2) * 5000 ≤ (i 0).val ∧ (i 0).val < win3_5.index t (0 : Fin 2) * 5000 + 5000; omega,
    by show win3_5.index t (1 : Fin 2) * 128 ≤ (i 1).val ∧ (i 1).val < win3_5.index t (1 : Fin 2) * 128 + 128; omega⟩

theorem arrAt3_5 (c : Dev nD) : (dat3 (F := Ideal) V c).arrAt 5 cfg3.N
    = G3 (V c main_v22_0) (V c main_v42) (V c main_v43) (V c main_v44) (V c main_v45) :=
  (dat3 (F := Ideal) V c).arrAt_eq_of_cover 5
    (G3 (V c main_v22_0) (V c main_v42) (V c main_v43) (V c main_v44) (V c main_v45))
    (fun t _ => flushed3_eq V c t) cover3

end Cert.KernelIdeal.HandVal

end
-- ==== Proof.KiFlush0.lean ====
import proofs.«421496_j55748675502408_4_alg».proof.Proof.Gen.KernelIdeal.Launch
import proofs.«421496_j55748675502408_4_alg».proof.Proof.Gen.KernelIdeal.Points
import Idealize.ShloMosaic.Lib.Pipeline.FrameBody
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The result window's block index at a point: block row (point / 3125), the one block column. -/
theorem idx0_3 : ∀ t : Fin grid0.N, win0_3.index t (0 : Fin 2) = t.val / 3125 ∧ win0_3.index t (1 : Fin 2) = 0 := by decide +kernel

theorem mem_blk0_3 (t : Fin cfg0.N) (i : S100000x128.Idx) :
    i ∈ ((cfg0.win 3).blk t).view.set ↔ ∀ a : Fin 2, win0_3.index t a * S50000x128.size a ≤ (i a).val
      ∧ (i a).val < win0_3.index t a * S50000x128.size a + S50000x128.size a := by
  show i ∈ ((View.whole main_v18).slice (win0_3.rect t)).set ↔ _
  rw [View.set_slice_whole, Rect.mem_set_unit]
  exact Iff.rfl

/-- The blocks of two distinct points that write the result back are the two block rows, which are disjoint. -/
theorem disj0_3 : ∀ t t' : Fin cfg0.N, (cfg0.win 3).flush t = true → (cfg0.win 3).flush t' = true → t ≠ t' →
    Disjoint ((cfg0.win 3).blk t).view.set ((cfg0.win 3).blk t').view.set := by
  intro t t' hf hf' hne
  rw [Finset.disjoint_left]
  intro i hi hi'
  have a : win0_3.index t (0 : Fin 2) * 50000 ≤ (i 0).val ∧ (i 0).val < win0_3.index t (0 : Fin 2) * 50000 + 50000 := (mem_blk0_3 t i).1 hi 0
  have a' : win0_3.index t' (0 : Fin 2) * 50000 ≤ (i 0).val ∧ (i 0).val < win0_3.index t' (0 : Fin 2) * 50000 + 50000 := (mem_blk0_3 t' i).1 hi' 0
  rw [(idx0_3 t).1] at a
  rw [(idx0_3 t').1] at a'
  rw [flush0_3] at hf hf'
  have hN : cfg0.N = 6250 := N_0
  have hv : t.val ≠ t'.val := fun e => hne (Fin.ext e)
  have h1 := t.isLt
  have h2 := t'.isLt
  omega

/-- Row `50000·h + r` of the result array holds row `r` of what the body left at the point that writes block row `h` back. -/
theorem arrAt0_3_rows {c : Dev nD} (dat : Dat τ (Elt F) Unit ℕ (UR sig nD τ) ℕ cfg0 c) (h : Fin 2) (r : Fin 50000) (j : Fin 128) :
    dat.arrAt 3 cfg0.N (ix2 (⟨50000 * h.val + r.val, by omega⟩ : Fin 100000) j)
      = dat.after 3 ⟨3125 * h.val + 3124, by have hN : cfg0.N = 6250 := N_0; omega⟩ (ix2 r j) := by
  have hN : cfg0.N = 6250 := N_0
  have ht : 3125 * h.val + 3124 < cfg0.N := by omega
  have hr : 50000 * h.val + r.val < 100000 := by omega
  have hf : (cfg0.win 3).flush ⟨3125 * h.val + 3124, ht⟩ = true :=
    (flush0_3 _).2 (by show (3125 * h.val + 3124) % 3125 = 3124; omega)
  have key := dat.arrAt_emb_eq_flushed 3 disj0_3 ⟨3125 * h.val + 3124, ht⟩ hf (ix2 r j)
  have hemb : (((cfg0.win 3).blk ⟨3125 * h.val + 3124, ht⟩).view.emb (ix2 r j) : S100000x128.Idx)
      = ix2 (⟨50000 * h.val + r.val, hr⟩ : Fin 100000) j := by
    funext a; apply Fin.ext
    match a with
    | ⟨0, _⟩ =>
      show win0_3.index ⟨3125 * h.val + 3124, ht⟩ (0 : Fin 2) * 50000 + 1 * r.val = 50000 * h.val + r.val
      rw [(idx0_3 _).1]
      show (3125 * h.val + 3124) / 3125 * 50000 + 1 * r.val = 50000 * h.val + r.val
      omega
    | ⟨1, _⟩ =>
      show win0_3.index ⟨3125 * h.val + 3124, ht⟩ (1 : Fin 2) * 128 + 1 * j.val = j.val
      rw [(idx0_3 _).2]
      omega
  rw [hemb] at key
  exact key

end Cert.KernelIdeal.Hand

end
-- ==== Proof.KiBlk0.lean ====
import proofs.«421496_j55748675502408_4_alg».proof.Proof.KiR0
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The input windows' block indices at a point: the point for the two index windows, (0, 0) for the table. -/
theorem idx0 : ∀ t : Fin grid0.N, win0_0.index t (0 : Fin 1) = t.val ∧ win0_1.index t (0 : Fin 1) = t.val
    ∧ win0_2.index t (0 : Fin 2) = 0 ∧ win0_2.index t (1 : Fin 2) = 0 := by decide +kernel

/-- Word `u` of an index block at point `t` is word `128 t + u` of its array. -/
theorem iblk0_0_apply (c : Dev nD) (t : Fin cfg0.N) (u : Fin 128) (e : Fin 800000) (he : e.val = 128 * t.val + u.val) :
    (iblk0 V c 0 t : Vec F S128 .i32) (ix1 u) = (V c main_v0 : Vec F S800000 .i32) (ix1 e) :=
  congrArg (V c main_v0 : Vec F S800000 .i32) (funext fun a => Fin.ext (match a with
    | ⟨0, _⟩ => show win0_0.index t (0 : Fin 1) * 128 + 1 * u.val = e.val by rw [(idx0 t).1]; omega))

theorem iblk0_1_apply (c : Dev nD) (t : Fin cfg0.N) (u : Fin 128) (e : Fin 800000) (he : e.val = 128 * t.val + u.val) :
    (iblk0 V c 1 t : Vec F S128 .i32) (ix1 u) = (V c main_v1 : Vec F S800000 .i32) (ix1 e) :=
  congrArg (V c main_v1 : Vec F S800000 .i32) (funext fun a => Fin.ext (match a with
    | ⟨0, _⟩ => show win0_1.index t (0 : Fin 1) * 128 + 1 * u.val = e.val by rw [(idx0 t).2.1]; omega))

/-- The table block at any point is the table array. -/
theorem iblk0_2_apply (c : Dev nD) (t : Fin cfg0.N) (r : Fin 50000) (j : Fin 128) :
    (iblk0 V c 2 t : Vec F S50000x128 .f32) (ix2 r j) = (V c main_v17 : Vec F S50000x128 .f32) (ix2 r j) :=
  congrArg (V c main_v17 : Vec F S50000x128 .f32) (funext fun a => Fin.ext (match a with
    | ⟨0, _⟩ => show win0_2.index t (0 : Fin 2) * 50000 + 1 * r.val = r.val by rw [(idx0 t).2.2.1]; omega
    | ⟨1, _⟩ => show win0_2.index t (1 : Fin 2) * 128 + 1 * j.val = j.val by rw [(idx0 t).2.2.2]; omega))

end Cert.KernelIdeal.Hand

end
-- ==== Proof.KiVal0Trip.lean ====
import proofs.«421496_j55748675502408_4_alg».proof.Proof.KiR0
import proofs.«421496_j55748675502408_4_alg».proof.Proof.SumSplit
import Idealize.ShloMosaic.Lib.ValueIdx
import Idealize.ShloMosaic.Lib.ValueLayout
import Idealize.ShloMosaic.Lib.WritesUnit
import Idealize.ShloMosaic.Lib.Pipeline.Value
import Idealize.ShloMosaic.PureOps.Ideal.Laws

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

namespace Trip0

/-- After a store of one row at row `d`, row `d` reads the stored row and every other row reads as before. -/
theorem read_cons_row {R : ℕ} {sp : Space} (m : Memref sig .tc sp (⟨2, ![R, 128]⟩ : Shape) .f32) (f : BufTy.Contents (Elt Ideal) m.view.ty)
    (off : Fin 2 → ℕ) (d : ℕ) (hoff : off = ![d, 0]) (inb : ∀ a : Fin 2, off a + S1x128.size a ≤ (![R, 128] : Fin 2 → ℕ) a)
    (w : (Rect.unit (s := (⟨2, ![R, 128]⟩ : Shape)) off S1x128.size inb).shape.Idx → Elt Ideal .f32)
    (L : List (View.Piece (Elt Ideal) (⟨2, ![R, 128]⟩ : Shape) .f32)) (n : Fin R) (j : Fin 128) :
    m.view.read (Elt Ideal) (m.view.writes (Elt Ideal) f (⟨Rect.unit (s := (⟨2, ![R, 128]⟩ : Shape)) off S1x128.size inb, w⟩ :: L)) (ix2 n j)
      = if n.val = d then w (ix2 (0 : Fin 1) j) else m.view.read (Elt Ideal) (m.view.writes (Elt Ideal) f L) (ix2 n j) := by
  by_cases h : n.val = d
  · rw [if_pos h]
    exact View.read_writes_cons_rows_of_mem m.view f inb w L (ix2 n j) (ix2 (0 : Fin 1) j) hoff (by show n.val = d + 0; omega) rfl
  · rw [if_neg h]
    exact View.read_writes_cons_rows_of_not_mem m.view f inb w L (ix2 n j) hoff (W := 1) rfl (by show n.val < d ∨ d + 1 ≤ n.val; omega)

/-- A load of one row at row `d` reads row `d`. -/
theorem readAt_row {R : ℕ} {sp : Space} (m : Memref sig .tc sp (⟨2, ![R, 128]⟩ : Shape) .f32) (g : BufTy.Contents (Elt Ideal) m.view.ty)
    (off : Fin 2 → ℕ) (d : ℕ) (hoff : off = ![d, 0]) (inb : ∀ a : Fin 2, off a + S1x128.size a ≤ (![R, 128] : Fin 2 → ℕ) a)
    (hd : d < R) (j : Fin 128) :
    m.view.readAt (Elt Ideal) (Rect.unit (s := (⟨2, ![R, 128]⟩ : Shape)) off S1x128.size inb).toLoadRect g (ix2 (0 : Fin 1) j)
      = m.view.read (Elt Ideal) g (ix2 (⟨d, hd⟩ : Fin R) j) := by
  subst hoff
  rw [View.readAt_apply]
  congr 1
  funext a; apply Fin.ext
  match a with
  | ⟨0, _⟩ => show d + 1 * 0 = d; omega
  | ⟨1, _⟩ => show 0 + 1 * j.val = j.val; omega

theorem trips16 : k0_t1_loop.trips = 16 := by decide

/-- Edge `u` of trip `k`, among the block's 128. -/
def e8 (k : Fin k0_t1_loop.trips) (u : Fin 8) : Fin 128 :=
  ⟨8 * k.val + u.val, by have h1 := k0_t1_abs.2.1; have h2 := k.isLt; have h3 := u.isLt; omega⟩

/-- A word loaded from a whole index block whose window starts at position `e` is the block's word `e`. -/
theorem word_at {sp : Space} {m : Memref sig .tc sp S128 .i32} (hm : m.IsWhole) (x : Vec Ideal S128 .i32) {off : Fin 1 → ℕ}
    {inb : ∀ a : Fin 1, off a + S1.size a ≤ S128.size a} (y : (Rect.unit (s := S128) off S1.size inb).shape.Idx) (e : Fin 128)
    (h : off = ![e.val]) :
    View.readAt (Elt Ideal) m.view (Rect.unit (s := S128) off S1.size inb).toLoadRect (hm.unread x) y = x (ix1 e) := by
  subst h
  rw [View.readAt_apply, hm.read_unread]
  congr 1
  funext a; apply Fin.ext
  match a with
  | ⟨0, _⟩ => show e.val + 1 * (y 0).val = e.val; have : (y 0).val < 1 := (y 0).isLt; omega

section
variable (c : Dev nD) (i : grid0.Coords) (arg2 : Memref sig .tc .smem S128 .i32) (harg2 : arg2.IsWhole) (arg3 : Memref sig .tc .smem S128 .i32) (harg3 : arg3.IsWhole) (arg4 : Memref sig .tc .vmem S50000x128 .f32) (harg4 : arg4.IsWhole) (arg5 : Memref sig .tc .vmem S50000x128 .f32) (harg5 : arg5.IsWhole) (arg6 : Memref sig .tc .vmem S8x128 .f32) (harg6 : arg6.IsWhole)
  (x2 x3 : Vec Ideal S128 .i32) (hx2 : ∀ y, (x2 y).toNat < 50000) (hx3 : ∀ y, (x3 y).toNat < 50000) (X4 : BufTy.Contents (Elt Ideal) arg4.view.ty)
  (k : Fin k0_t1_loop.trips) (f5 : BufTy.Contents (Elt Ideal) arg5.view.ty) (n : Fin 50000) (j : Fin 128)

theorem wsrc_0 : trip0.sl.r arg2 harg2 x2 k = x2 (ix1 (e8 k 0)) := word_at harg2 x2 _ _ (by rw [k0_off1_eq]; rfl)
theorem wdst_0 : trip0.sl.r_10 arg3 harg3 x3 k = x3 (ix1 (e8 k 0)) := word_at harg3 x3 _ _ (by rw [k0_off17_eq]; rfl)
theorem wsrc_1 : trip0.sl.r_1 arg2 harg2 x2 k = x2 (ix1 (e8 k 1)) := word_at harg2 x2 _ _ (by rw [k0_off3_eq]; rfl)
theorem wdst_1 : trip0.sl.r_11 arg3 harg3 x3 k = x3 (ix1 (e8 k 1)) := word_at harg3 x3 _ _ (by rw [k0_off19_eq]; rfl)
theorem wsrc_2 : trip0.sl.r_2 arg2 harg2 x2 k = x2 (ix1 (e8 k 2)) := word_at harg2 x2 _ _ (by rw [k0_off5_eq]; rfl)
theorem wdst_2 : trip0.sl.r_12 arg3 harg3 x3 k = x3 (ix1 (e8 k 2)) := word_at harg3 x3 _ _ (by rw [k0_off21_eq]; rfl)
theorem wsrc_3 : trip0.sl.r_3 arg2 harg2 x2 k = x2 (ix1 (e8 k 3)) := word_at harg2 x2 _ _ (by rw [k0_off7_eq]; rfl)
theorem wdst_3 : trip0.sl.r_14 arg3 harg3 x3 k = x3 (ix1 (e8 k 3)) := word_at harg3 x3 _ _ (by rw [k0_off23_eq]; rfl)
theorem wsrc_4 : trip0.sl.r_5 arg2 harg2 x2 k = x2 (ix1 (e8 k 4)) := word_at harg2 x2 _ _ (by rw [k0_off9_eq]; rfl)
theorem wdst_4 : trip0.sl.r_15 arg3 harg3 x3 k = x3 (ix1 (e8 k 4)) := word_at harg3 x3 _ _ (by rw [k0_off25_eq]; rfl)
theorem wsrc_5 : trip0.sl.r_6 arg2 harg2 x2 k = x2 (ix1 (e8 k 5)) := word_at harg2 x2 _ _ (by rw [k0_off11_eq]; rfl)
theorem wdst_5 : trip0.sl.r_16 arg3 harg3 x3 k = x3 (ix1 (e8 k 5)) := word_at harg3 x3 _ _ (by rw [k0_off27_eq]; rfl)
theorem wsrc_6 : trip0.sl.r_7 arg2 harg2 x2 k = x2 (ix1 (e8 k 6)) := word_at harg2 x2 _ _ (by rw [k0_off13_eq]; rfl)
theorem wdst_6 : trip0.sl.r_18 arg3 harg3 x3 k = x3 (ix1 (e8 k 6)) := word_at harg3 x3 _ _ (by rw [k0_off29_eq]; rfl)
theorem wsrc_7 : trip0.sl.r_8 arg2 harg2 x2 k = x2 (ix1 (e8 k 7)) := word_at harg2 x2 _ _ (by rw [k0_off15_eq]; rfl)
theorem wdst_7 : trip0.sl.r_19 arg3 harg3 x3 k = x3 (ix1 (e8 k 7)) := word_at harg3 x3 _ _ (by rw [k0_off31_eq]; rfl)

/-- Element `j` of the table's row that source word `u` of trip `k` names. -/
def gv (u : Fin 8) : EReal := arg4.view.read (Elt Ideal) X4 (ix2 (⟨(x2 (ix1 (e8 k u))).toNat, hx2 _⟩ : Fin 50000) j)

/-- A gathered row, read at column `j`, is the table's row at the gather's offset. -/
theorem row_pay {off : Fin 2 → ℕ} {d : ℕ} (hoff : off = ![d, 0]) {inb : ∀ a : Fin 2, off a + S1x128.size a ≤ (![50000, 128] : Fin 2 → ℕ) a} (hd : d < 50000) :
    k0_pay12 (View.readAt (Elt Ideal) arg4.view (Rect.unit (s := S50000x128) off S1x128.size inb).toLoadRect X4) (ix2 (0 : Fin 1) j)
      = arg4.view.read (Elt Ideal) X4 (ix2 (⟨d, hd⟩ : Fin 50000) j) := by
  unfold k0_pay12
  rw [shapeCast_a_1a_apply, shapeCast_1a_a_apply]
  exact readAt_row (R := 50000) arg4 X4 off d hoff inb hd j

/-- After the eight gathers, row `u` of the 8-row buffer holds the table's row that source word `u` names. -/
theorem load6 (u : Fin 8) {off : Fin 2 → ℕ} (hoff : off = ![u.val, 0]) {inb : ∀ a : Fin 2, off a + S1x128.size a ≤ (![8, 128] : Fin 2 → ℕ) a} :
    arg6.view.readCov (trip0.sl.H6_8 arg2 harg2 arg4 x2 hx2 X4 k) (Rect.unit (s := S8x128) off S1x128.size inb).toLoadRect (ix2 (0 : Fin 1) j)
      = gv arg4 x2 hx2 X4 k j u := by
  unfold View.readCov trip0.sl.H6_8
  rw [readAt_row (R := 8) arg6 _ off u.val hoff inb u.isLt j]
  fin_cases u
  all_goals (repeat rw [read_cons_row (R := 8) arg6 _ _ _ rfl, if_neg (by decide)]); rw [read_cons_row (R := 8) arg6 _ _ _ rfl, if_pos rfl]
  · exact row_pay arg4 X4 j (by rw [wsrc_0]; rfl) (hx2 _)
  · exact row_pay arg4 X4 j (by rw [wsrc_1]; rfl) (hx2 _)
  · exact row_pay arg4 X4 j (by rw [wsrc_2]; rfl) (hx2 _)
  · exact row_pay arg4 X4 j (by rw [wsrc_3]; rfl) (hx2 _)
  · exact row_pay arg4 X4 j (by rw [wsrc_4]; rfl) (hx2 _)
  · exact row_pay arg4 X4 j (by rw [wsrc_5]; rfl) (hx2 _)
  · exact row_pay arg4 X4 j (by rw [wsrc_6]; rfl) (hx2 _)
  · exact row_pay arg4 X4 j (by rw [wsrc_7]; rfl) (hx2 _)

/-- One row update: the row at `d` is loaded, `G` is added and it is stored back; read at row `n`, the update adds `G`'s entry iff `d = n`. -/
theorem rmw_row {off : Fin 2 → ℕ} {d : ℕ} (hoff : off = ![d, 0]) {inb : ∀ a : Fin 2, off a + S1x128.size a ≤ (![50000, 128] : Fin 2 → ℕ) a} (hd : d < 50000)
    {L : List (View.Piece (Elt Ideal) S50000x128 .f32)} {G : Vec Ideal S1x128 .f32} {g A : EReal}
    (hG : G (ix2 (0 : Fin 1) j) = g) (hL : arg5.view.read (Elt Ideal) (arg5.view.writes (Elt Ideal) f5 L) (ix2 n j) = A) :
    arg5.view.read (Elt Ideal) (arg5.view.writes (Elt Ideal) f5 (⟨Rect.unit (s := S50000x128) off S1x128.size inb,
        k0_pay13 (View.readAt (Elt Ideal) arg5.view (Rect.unit (s := S50000x128) off S1x128.size inb).toLoadRect (arg5.view.writes (Elt Ideal) f5 L)) G⟩ :: L)) (ix2 n j)
      = A + if d = n.val then g else 0 := by
  rw [read_cons_row (R := 50000) arg5 f5 off d hoff]
  by_cases h : n.val = d
  · obtain rfl : n = ⟨d, hd⟩ := Fin.ext h
    rw [if_pos rfl, if_pos rfl, ← hL, ← hG]
    simp only [k0_pay13, shapeCast_a_1a_apply, addf_apply, shapeCast_1a_a_apply]
    rw [readAt_row (R := 50000) arg5 _ off d hoff inb hd j]
  · rw [if_neg h, if_neg (fun e => h e.symm), add_zero, hL]

/-- One trip at `(n, j)`: what was there plus the gathered entries of the updates whose destination word is `n`. -/
theorem trip_read0 :
    arg5.view.read (Elt Ideal) (arg5.view.writes (Elt Ideal) f5 (tripL5 (F := Ideal) c i arg2 harg2 arg3 harg3 arg4 harg4 arg5 harg5 arg6 harg6 x2 x3 hx2 hx3 X4 k f5)) (ix2 n j)
      = arg5.view.read (Elt Ideal) f5 (ix2 n j)
        + ∑ u ∈ Finset.univ.filter (fun u : Fin 8 => (x3 (ix1 (e8 k u))).toNat = n.val), gv arg4 x2 hx2 X4 k j u := by
  rw [Finset.sum_filter, Fin.sum_univ_eight]
  simp only [← add_assoc]
  unfold tripL5 trip0
  dsimp only
  refine rmw_row arg5 f5 n j (by rw [wdst_7]; rfl) (hx3 _) (load6 arg2 harg2 arg4 arg6 x2 hx2 X4 k j 7 rfl) ?_
  refine rmw_row arg5 f5 n j (by rw [wdst_6]; rfl) (hx3 _) (load6 arg2 harg2 arg4 arg6 x2 hx2 X4 k j 6 rfl) ?_
  refine rmw_row arg5 f5 n j (by rw [wdst_5]; rfl) (hx3 _) (load6 arg2 harg2 arg4 arg6 x2 hx2 X4 k j 5 rfl) ?_
  refine rmw_row arg5 f5 n j (by rw [wdst_4]; rfl) (hx3 _) (load6 arg2 harg2 arg4 arg6 x2 hx2 X4 k j 4 rfl) ?_
  refine rmw_row arg5 f5 n j (by rw [wdst_3]; rfl) (hx3 _) (load6 arg2 harg2 arg4 arg6 x2 hx2 X4 k j 3 rfl) ?_
  refine rmw_row arg5 f5 n j (by rw [wdst_2]; rfl) (hx3 _) (load6 arg2 harg2 arg4 arg6 x2 hx2 X4 k j 2 rfl) ?_
  refine rmw_row arg5 f5 n j (by rw [wdst_1]; rfl) (hx3 _) (load6 arg2 harg2 arg4 arg6 x2 hx2 X4 k j 1 rfl) ?_
  refine rmw_row arg5 f5 n j (L := []) (by rw [wdst_0]; rfl) (hx3 _) (load6 arg2 harg2 arg4 arg6 x2 hx2 X4 k j 0 rfl) ?_
  rw [View.writes_nil]

variable (G5 : BufTy.Contents (Elt Ideal) arg5.view.ty)

/-- After the first `m` trips: what the block held plus those trips' addends. -/
theorem pb_read : ∀ m (hm : m ≤ k0_t1_loop.trips),
      arg5.view.read (Elt Ideal) (arg5.view.writes (Elt Ideal) G5 (pb5 (F := Ideal) c i arg2 harg2 arg3 harg3 arg4 harg4 arg5 harg5 arg6 harg6 x2 x3 hx2 hx3 X4 G5 m)) (ix2 n j)
        = arg5.view.read (Elt Ideal) G5 (ix2 n j) + ∑ k : Fin m, ∑ u ∈ Finset.univ.filter (fun u : Fin 8 => (x3 (ix1 (e8 (k.castLE hm) u))).toNat = n.val),
            gv arg4 x2 hx2 X4 (k.castLE hm) j u
  | 0, _ => by rw [pb5, View.writes_nil, Finset.univ_eq_empty, Finset.sum_empty, add_zero]
  | m + 1, hm => by
    have hs := pb5_succ (F := Ideal) c i arg2 harg2 arg3 harg3 arg4 harg4 arg5 harg5 arg6 harg6 x2 x3 hx2 hx3 X4 G5 ⟨m, hm⟩
    dsimp only at hs
    rw [hs, View.writes_append, trip_read0, pb_read m (Nat.le_of_succ_le hm), Fin.sum_univ_castSucc, add_assoc]
    rfl

/-- A point's run at `(n, j)`: the entry block plus the table's entries named by the sources of the block's edges whose destination is `n`. -/
theorem ptRun0_apply (x4 acc : Vec Ideal S50000x128 .f32) :
    ptRun0 (F := Ideal) c i arg2 harg2 arg3 harg3 arg4 harg4 arg5 harg5 arg6 harg6 x2 x3 hx2 hx3 x4 acc (ix2 n j)
      = acc (ix2 n j) + ∑ u ∈ Finset.univ.filter (fun u : Fin 128 => (x3 (ix1 u)).toNat = n.val),
          x4 (ix2 (⟨(x2 (ix1 u)).toNat, hx2 _⟩ : Fin 50000) j) := by
  unfold ptRun0
  rw [pb_read c i arg2 harg2 arg3 harg3 arg4 harg4 arg5 harg5 arg6 harg6 x2 x3 hx2 hx3 (harg4.unread x4) n j (harg5.unread acc) _ le_rfl, harg5.read_unread, Cert.SumSplit.sum_filter_trips]
  congr 1
  exact Fintype.sum_equiv (finCongr trips16) _ _ fun k => by unfold gv; rw [harg4.read_unread]; rfl

end

end Trip0

variable (V : (c : Dev nD) → (b : Ref sig .tc) → Buf (Elt Ideal) ((c : Thread nD τ).loc b))

abbrev xb0 (c : Dev nD) (t : Fin cfg0.N) : IVec S128 32 := iblk0 V c 0 t
abbrev xb1 (c : Dev nD) (t : Fin cfg0.N) : IVec S128 32 := iblk0 V c 1 t
abbrev tb0 (c : Dev nD) (t : Fin cfg0.N) : FVec Ideal S50000x128 .f32 := iblk0 V c 2 t

/-- Point `t`'s run over `acc`, read at row `n`, column `j`. -/
theorem ptAt0_apply (hV : InRange0 V) (c : Dev nD) (t : Fin cfg0.N) (acc : FVec Ideal S50000x128 .f32) (n : Fin 50000) (j : Fin 128) :
    (ptAt0 V hV c t acc : FVec Ideal S50000x128 .f32) (ix2 n j)
      = acc (ix2 n j) + ∑ u ∈ Finset.univ.filter (fun u : Fin 128 => (xb1 V c t (ix1 u)).toNat = n.val),
          tb0 V c t (ix2 (⟨(xb0 V c t (ix1 u)).toNat, iblk0_0_lt V hV c t _⟩ : Fin 50000) j) :=
  Trip0.ptRun0_apply c (grid0.coords t) _ _ _ _ _ _ _ _ _ _ (iblk0 V c 0 t) (iblk0 V c 1 t) (iblk0_0_lt V hV c t) (iblk0_1_lt V hV c t) n j
    (iblk0 V c 2 t) acc

end Cert.KernelIdeal.HandVal

end
-- ==== Proof.KiVal0Fold.lean ====
import proofs.«421496_j55748675502408_4_alg».proof.Proof.KiR0
import Idealize.ShloMosaic.Lib.ValueIdx
import Idealize.ShloMosaic.PureOps.Ideal.Laws

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

theorem zeros0_apply (y : S50000x128.Idx) : (zeros0 (F := Ideal) : FVec Ideal S50000x128 .f32) y = 0 :=
  Ideal.ofBits_zero_f32

theorem pt_lt (h : Fin 2) (i : ℕ) (hi : i < 3125) : 3125 * h.val + i < cfg0.N := by
  rw [show cfg0.N = 6250 from N_0]; omega

variable (hV : InRange0 V) (c : Dev nD) (S : ℕ → Fin 50000 → Fin 128 → EReal)
  (hpt : ∀ (t : Fin cfg0.N) (acc : FVec Ideal S50000x128 .f32) (n : Fin 50000) (j : Fin 128),
    (ptAt0 V hV c t acc : FVec Ideal S50000x128 .f32) (ix2 n j) = acc (ix2 n j) + S t.val n j)

include hpt in
/-- If every point adds `S t n j` to element `(n, j)` of its entry block, the first `i + 1` points of core `h`'s row leave the sum of their terms. -/
theorem outAt0_fold_upto (h : Fin 2) (n : Fin 50000) (j : Fin 128) : ∀ (i : ℕ) (hi : i < 3125),
    (outAt0 V hV c (3125 * h.val + i) (pt_lt h i hi) : FVec Ideal S50000x128 .f32) (ix2 n j)
      = ∑ k ∈ Finset.range (i + 1), S (3125 * h.val + k) n j
  | 0, hi => by
    rw [outAt0_A V hV c ⟨3125 * h.val + 0, pt_lt h 0 hi⟩ (by dsimp only; omega), hpt, zeros0_apply, zero_add, Finset.sum_range_one]
  | i + 1, hi => by
    rw [outAt0_B V hV c ⟨3125 * h.val + (i + 1), pt_lt h (i + 1) hi⟩ (by dsimp only; omega), hpt, Finset.sum_range_succ]
    exact congrArg (· + _) (outAt0_fold_upto h n j i (by omega))

include hpt in
theorem outAt0_fold (h : Fin 2) (n : Fin 50000) (j : Fin 128) :
    (outAt0 V hV c (3125 * h.val + 3124) (pt_lt h 3124 (by omega)) : FVec Ideal S50000x128 .f32) (ix2 n j)
      = ∑ i : Fin 3125, S (3125 * h.val + i.val) n j :=
  (outAt0_fold_upto V hV c S hpt h n j 3124 (by omega)).trans (Fin.sum_univ_eq_sum_range (fun k => S (3125 * h.val + k) n j) 3125).symm

end Cert.KernelIdeal.HandVal

end
-- ==== Proof.KiVal0.lean ====
import proofs.«421496_j55748675502408_4_alg».proof.Proof.KiR0
import proofs.«421496_j55748675502408_4_alg».proof.Proof.KiFlush0
import proofs.«421496_j55748675502408_4_alg».proof.Proof.KiBlk0
import proofs.«421496_j55748675502408_4_alg».proof.Proof.KiVal0Trip
import proofs.«421496_j55748675502408_4_alg».proof.Proof.KiVal0Fold
import proofs.«421496_j55748675502408_4_alg».proof.Proof.SumSplit
import Idealize.ShloMosaic.Lib.ValueIdx
import Idealize.ShloMosaic.Lib.Pipeline.Value
import Idealize.ShloMosaic.PureOps.Ideal.Laws

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- What grid point `t` adds to element `(n, j)` of the block it is entered at (nothing past the grid). -/
def term0 (hV : InRange0 V) (c : Dev nD) (t : ℕ) (n : Fin 50000) (j : Fin 128) : EReal :=
  if h : t < cfg0.N then
    ∑ u ∈ Finset.univ.filter (fun u : Fin 128 => (xb1 V c ⟨t, h⟩ (ix1 u)).toNat = n.val),
      tb0 V c ⟨t, h⟩ (ix2 (⟨(xb0 V c ⟨t, h⟩ (ix1 u)).toNat, iblk0_0_lt V hV c ⟨t, h⟩ _⟩ : Fin 50000) j)
  else 0

/-- The edge sums of half `h` of an edge list into node `n`, at feature `j`. -/
abbrev Agg0 (v0 v1 : IVec S800000 32) (v17 : FVec Ideal S50000x128 .f32) (h : Fin 2) (n : Fin 50000) (j : Fin 128) : EReal :=
  ∑ e ∈ Finset.univ.filter (fun e : Fin 400000 => (v1 (ix1 (⟨400000 * h.val + e.val, by omega⟩ : Fin 800000))).toNat = n.val),
    v17 (ix2 (⟨min (v0 (ix1 (⟨400000 * h.val + e.val, by omega⟩ : Fin 800000))).toNat 49999, by omega⟩ : Fin 50000) j)

/-- Block row `h` of the first region's result is written once, after the core's 3125 points have each added their block's edges. -/
theorem arrAt0_3 (hV : InRange0 V) (c : Dev nD) (h : Fin 2) (n : Fin 50000) (j : Fin 128) :
    (dat0 (F := Ideal) V c).arrAt 3 cfg0.N (ix2 (⟨50000 * h.val + n.val, by omega⟩ : Fin 100000) j)
      = Agg0 (V c main_v0) (V c main_v1) (V c main_v17) h n j := by
  have hN : cfg0.N = 6250 := N_0
  refine (arrAt0_3_rows (dat0 V c) h n j).trans ?_
  rw [after0_3 V hV c ⟨3125 * h.val + 3124, by omega⟩]
  refine (outAt0_fold V hV c (term0 V hV c) (fun t acc n j => by rw [ptAt0_apply, term0, dif_pos t.isLt]) h n j).trans ?_
  unfold Agg0
  rw [Cert.SumSplit.sum_filter_blocks]
  refine Finset.sum_congr rfl fun i _ => ?_
  have hi := i.isLt
  have ht : 3125 * h.val + i.val < cfg0.N := by omega
  rw [term0, dif_pos ht]
  refine Finset.sum_congr (Finset.filter_congr fun u _ => ?_) fun u _ => ?_
  · exact iff_of_eq (congrArg (fun w : BitVec 32 => w.toNat = n.val) (iblk0_1_apply V c ⟨_, ht⟩ u _ (by dsimp only; omega)))
  · have e0 := iblk0_0_apply V c ⟨_, ht⟩ u ⟨400000 * h.val + (128 * i.val + u.val), by omega⟩ (by dsimp only; omega)
    have hlt := iblk0_0_lt V hV c ⟨_, ht⟩ (ix1 u)
    rw [e0] at hlt
    exact (iblk0_2_apply V c ⟨_, ht⟩ _ j).trans (congrArg (fun r => (V c main_v17 : FVec Ideal S50000x128 .f32) (ix2 r j)) (Fin.ext (by
      show (xb0 V c ⟨_, ht⟩ (ix1 u)).toNat = min _ 49999
      rw [show xb0 V c ⟨_, ht⟩ (ix1 u) = _ from e0]
      exact (Nat.min_eq_left (Nat.le_of_lt_succ hlt)).symm)))

end Cert.KernelIdeal.HandVal

end
-- ==== Proof.KiPay1.lean ====
import proofs.«421496_j55748675502408_4_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HandVal

open Cert.KernelIdeal Cert.KernelIdeal.Gen
open Idealize.ShloMosaic Idealize.ShloMosaic.ValueIdx

/-- The block product into zeros at an entry: the sum over the contracted axis of the operands' products. -/
theorem mm1_apply (L : FVec Ideal S5000x128 .f32) (R : FVec Ideal S128x128 .f32) (p : Fin 5000) (q : Fin 128) :
    FloatOps.matmul dot_S5000x128_S128x128_S5000x128_1_0_0_1_n_n none L R (constant (F := Ideal) S5000x128 .f32 0x00000000#32) (ix2 p q)
      = ∑ k : Fin 128, L (ix2 p k) * R (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  generalize (contrEquiv1 dot_S5000x128_S128x128_S5000x128_1_0_0_1_n_n 128 rfl rfl).symm k = κ at hk
  have el : dot_S5000x128_S128x128_S5000x128_1_0_0_1_n_n.lhsIdx (ix2 p q) κ = ix2 p k :=
    funext (Fin.forall_fin_two.2 ⟨Fin.ext (by
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl), Fin.ext ((DotDims.lhsIdx_val_of_single _ rfl _ κ).trans hk)⟩)
  have er : dot_S5000x128_S128x128_S5000x128_1_0_0_1_n_n.rhsIdx (ix2 p q) κ = ix2 k q :=
    funext (Fin.forall_fin_two.2 ⟨Fin.ext ((DotDims.rhsIdx_val_of_single _ rfl _ κ).trans hk), Fin.ext (by
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)⟩)
  rw [el, er]

/-- A column broadcast over the columns reads, at any column, the operand's one entry of the row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay1_out_apply (aA aB : Vec Ideal S5000x128 .f32) (nd : Vec Ideal S5000x1 .f32) (x : Vec Ideal S5000x128 .f32)
    (wg : Vec Ideal S128x128 .f32) (bg : Vec Ideal S1x128 .f32) (wl : Vec Ideal S128x128 .f32) (bl : Vec Ideal S1x128 .f32)
    (p : Fin 5000) (q : Fin 128) :
    k1_pay3 aA aB nd x wg bg wl bl (ix2 p q)
      = (((∑ k : Fin 128, ((aA (ix2 p k) + aB (ix2 p k)) * nd (ix2 p 0)) * wg (ix2 k q)) + bg (ix2 0 q)) + x (ix2 p q))
        + ((∑ k : Fin 128, x (ix2 p k) * wl (ix2 k q)) + bl (ix2 0 q)) := by
  unfold k1_pay3
  simp only [addf_apply, matmul, mm1_apply, mulf_apply, shapeCast_self, broadcastTo_1b_ab_apply, broadcastTo_a1_ab_apply]

/-- The column sums of the block's output rows. -/
theorem pay1_colsum_apply (aA aB : Vec Ideal S5000x128 .f32) (nd : Vec Ideal S5000x1 .f32) (x : Vec Ideal S5000x128 .f32)
    (wg : Vec Ideal S128x128 .f32) (bg : Vec Ideal S1x128 .f32) (wl : Vec Ideal S128x128 .f32) (bl : Vec Ideal S1x128 .f32)
    (q : Fin 128) :
    k1_pay4 aA aB nd x wg bg wl bl (ix2 0 q) = ∑ p : Fin 5000, k1_pay3 aA aB nd x wg bg wl bl (ix2 p q) := by
  unfold k1_pay4
  refine (shapeCast_a_1a_apply _ _ 0 q).trans ?_
  refine (Ideal.multiReduction_add_single (k1_pay3 aA aB nd x wg bg wl bl) 0x00000000#32 reduces_S5000x128_S128 (.inl rfl) rfl (ix1 q)).trans ?_
  exact Finset.sum_congr rfl fun p _ => congrArg _ (funext (Fin.forall_fin_two.2 ⟨rfl, rfl⟩))

theorem pay1_sum_apply (aA aB : Vec Ideal S5000x128 .f32) (nd : Vec Ideal S5000x1 .f32) (x : Vec Ideal S5000x128 .f32)
    (wg : Vec Ideal S128x128 .f32) (bg : Vec Ideal S1x128 .f32) (wl : Vec Ideal S128x128 .f32) (bl : Vec Ideal S1x128 .f32)
    (so : Vec Ideal S1x128 .f32) (q : Fin 128) :
    k1_pay1 (k1_pay4 aA aB nd x wg bg wl bl) so (ix2 0 q)
      = so (ix2 0 q) + ∑ p : Fin 5000, k1_pay3 aA aB nd x wg bg wl bl (ix2 p q) := by
  unfold k1_pay1
  simp only [addf_apply, shapeCast_self, pay1_colsum_apply]

theorem pay1_zero_apply (i : S8x128.Idx) : (k1_pay2 (F := Ideal)) i = (0 : EReal) := by
  unfold k1_pay2
  exact Ideal.ofBits_zero_f32

end Cert.KernelIdeal.HandVal

end
-- ==== Proof.KiVal1Sum.lean ====
import proofs.«421496_j55748675502408_4_alg».proof.Proof.KiR1
import proofs.«421496_j55748675502408_4_alg».proof.Proof.KiPay1
import Idealize.ShloMosaic.Lib.ValueIdx
import Idealize.ShloMosaic.Lib.Pipeline.Value

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev sumPt1 (h : Fin 2) (i : Fin 5) : Fin cfg1.N :=
  ⟨5 * h.val + i.val, by have := h.isLt; have := i.isLt; rw [show cfg1.N = 10 from N_1]; omega⟩

def sum9_col (c : Dev nD) (t : Fin cfg1.N) (j : Fin 128) : Ideal .f32 :=
  ∑ p : Fin 5000, k1_pay3 (iblk1 V c 0 t) (iblk1 V c 1 t) (iblk1 V c 3 t) (iblk1 V c 2 t) (iblk1 V c 4 t) (iblk1 V c 5 t) (iblk1 V c 6 t) (iblk1 V c 7 t) (ix2 p j)

abbrev sum9_row (c : Dev nD) (t : Fin cfg1.N) (j : Fin 128) : Ideal .f32 := (dat1 V c).after 9 t (ix2 (0 : Fin 8) j)

theorem sum9_rR_emb (j : Fin 128) : rR.emb (ix2 (0 : Fin 1) j) = ix2 (0 : Fin 8) j := by
  funext a; apply Fin.ext
  match a with
  | ⟨0, _⟩ => rfl
  | ⟨1, _⟩ => show 0 + 1 * j.val = j.val; omega

theorem sum9_acc_row0 (x0 : Vec Ideal S5000x128 .f32) (x1 : Vec Ideal S5000x128 .f32) (x2 : Vec Ideal S5000x128 .f32) (x3 : Vec Ideal S5000x1 .f32) (x4 : Vec Ideal S128x128 .f32) (x5 : Vec Ideal S1x128 .f32) (x6 : Vec Ideal S128x128 .f32) (x7 : Vec Ideal S1x128 .f32)
    (xo : Vec Ideal S8x128 .f32) (j : Fin 128) :
    acc1_9 (F := Ideal) x0 x1 x2 x3 x4 x5 x6 x7 xo (ix2 (0 : Fin 8) j)
      = xo (ix2 (0 : Fin 8) j) + ∑ p : Fin 5000, k1_pay3 x0 x1 x3 x2 x4 x5 x6 x7 (ix2 p j) := by
  rw [← sum9_rR_emb j, acc1_9_row, pay1_sum_apply]
  rfl

theorem sum9_reset (c : Dev nD) (h : Fin 2) (j : Fin 128) (hi : 0 < 5) :
    sum9_row V c (sumPt1 h ⟨0, hi⟩) j = sum9_col V c (sumPt1 h ⟨0, hi⟩) j := by
  show (dat1 V c).after 9 (sumPt1 h ⟨0, hi⟩) (ix2 (0 : Fin 8) j) = _
  rw [after1_9_reset V c (sumPt1 h ⟨0, hi⟩) (by show (5 * h.val + 0) % 5 = 0; omega)]
  unfold accAt1_9
  rw [sum9_acc_row0]
  unfold zero1_9
  rw [pay1_zero_apply, zero_add]
  rfl

theorem sum9_step (c : Dev nD) (h : Fin 2) (j : Fin 128) (i : ℕ) (hi : i + 1 < 5) :
    sum9_row V c (sumPt1 h ⟨i + 1, hi⟩) j = sum9_row V c (sumPt1 h ⟨i, Nat.lt_of_succ_lt hi⟩) j + sum9_col V c (sumPt1 h ⟨i + 1, hi⟩) j := by
  show (dat1 V c).after 9 (sumPt1 h ⟨i + 1, hi⟩) (ix2 (0 : Fin 8) j) = _
  rw [after1_9_step V c (sumPt1 h ⟨i + 1, hi⟩) (by show ¬(5 * h.val + (i + 1)) % 5 = 0; omega)]
  unfold accAt1_9
  rw [sum9_acc_row0]
  refine congrArg₂ (· + ·) ?_ rfl
  show (dat1 V c).after 9 _ (ix2 (0 : Fin 8) j) = (dat1 V c).after 9 _ (ix2 (0 : Fin 8) j)
  refine congrFun (congrArg ((dat1 V c).after 9) (Fin.ext ?_)) _
  show 5 * h.val + (i + 1) - 1 = 5 * h.val + i
  omega

theorem sum9_fold (c : Dev nD) (h : Fin 2) (j : Fin 128) : ∀ (i : ℕ) (hi : i < 5),
    sum9_row V c (sumPt1 h ⟨i, hi⟩) j = ∑ s : Fin (i + 1), sum9_col V c (sumPt1 h ⟨s.val, by have := s.isLt; omega⟩) j
  | 0, hi => by
    rw [sum9_reset V c h j hi, Fin.sum_univ_castSucc, Fin.sum_univ_zero, zero_add]
    rfl
  | i + 1, hi => by
    rw [sum9_step V c h j i hi, sum9_fold c h j i (Nat.lt_of_succ_lt hi), Fin.sum_univ_castSucc (n := i + 1)]
    rfl

theorem sum9_hdisj : ∀ t t' : Fin cfg1.N, (cfg1.win 9).flush t = true → (cfg1.win 9).flush t' = true → t ≠ t' →
    (cfg1.win 9).index t ≠ (cfg1.win 9).index t' :=
  (by decide +kernel : ∀ t t' : Fin grid1.N, win1_9.flush t = true → win1_9.flush t' = true → t ≠ t' → win1_9.index t ≠ win1_9.index t')

theorem sum9_emb (h : Fin 2) (j : Fin 128) :
    ((cfg1.win 9).blk (sumPt1 h 4)).view.emb (ix2 (0 : Fin 8) j) = ix2 (⟨8 * h.val, by have := h.isLt; omega⟩ : Fin 16) j := by
  funext a; apply Fin.ext
  rw [show ((cfg1.win 9).blk (sumPt1 h 4)).view.emb (ix2 (0 : Fin 8) j) a = ((cfg1.win 9).rect (sumPt1 h 4)).emb (ix2 (0 : Fin 8) j) a from rfl,
    Pipeline.Window.rect_emb_val]
  revert a
  show ∀ a : Fin 2, _
  intro a
  fin_cases h
  · match a with
    | ⟨0, _⟩ => rfl
    | ⟨1, _⟩ => show 0 * 128 + j.val = j.val; omega
  · match a with
    | ⟨0, _⟩ => rfl
    | ⟨1, _⟩ => show 0 * 128 + j.val = j.val; omega

theorem arrAt1_9_raw (c : Dev nD) (h : Fin 2) (j : Fin 128) :
    (dat1 (F := Ideal) V c).arrAt 9 cfg1.N (ix2 (⟨8 * h.val, by have := h.isLt; omega⟩ : Fin 16) j)
      = ∑ i : Fin 5, ∑ p : Fin 5000, k1_pay3 (iblk1 V c 0 (sumPt1 h i)) (iblk1 V c 1 (sumPt1 h i)) (iblk1 V c 3 (sumPt1 h i)) (iblk1 V c 2 (sumPt1 h i)) (iblk1 V c 4 (sumPt1 h i)) (iblk1 V c 5 (sumPt1 h i)) (iblk1 V c 6 (sumPt1 h i)) (iblk1 V c 7 (sumPt1 h i)) (ix2 p j) := by
  have hf : (cfg1.win 9).flush (sumPt1 h 4) = true := (flush1_9 _).mpr (by show (5 * h.val + 4) % 5 = 4; omega)
  rw [← sum9_emb h j, Dat.arrAt_emb_eq_flushed _ 9 (fun t t' hf hf' hne => Pipeline.Window.disjoint_blk _ (sum9_hdisj t t' hf hf' hne)) (sumPt1 h 4) hf]
  rw [cast_eq]
  refine (sum9_fold V c h j 4 (by omega)).trans ?_
  rfl

end Cert.KernelIdeal.HandVal

end
-- ==== Proof.KiVal1.lean ====
import proofs.«421496_j55748675502408_4_alg».proof.Proof.KiR1
import proofs.«421496_j55748675502408_4_alg».proof.Proof.KiPay1
import proofs.«421496_j55748675502408_4_alg».proof.Proof.SumSplit
import proofs.«421496_j55748675502408_4_alg».proof.Proof.KiVal1Sum
import Idealize.ShloMosaic.Lib.ValueIdx
import Idealize.ShloMosaic.Lib.Pipeline.Value

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

abbrev outPre (a18 : Vec Ideal S100000x128 .f32) (x : Vec Ideal S50000x128 .f32) (nd : Vec Ideal S50000x1 .f32)
    (wg : Vec Ideal S128x128 .f32) (bg : Vec Ideal S1x128 .f32) (wl : Vec Ideal S128x128 .f32) (bl : Vec Ideal S1x128 .f32)
    (n : Fin 50000) (j : Fin 128) : EReal :=
  (((∑ k : Fin 128, ((a18 (ix2 ⟨n.val, by omega⟩ k) + a18 (ix2 ⟨50000 + n.val, by omega⟩ k)) * nd (ix2 n 0)) * wg (ix2 k j))
      + bg (ix2 0 j)) + x (ix2 n j))
    + ((∑ k : Fin 128, x (ix2 n k) * wl (ix2 k j)) + bl (ix2 0 j))

variable (V : (c : Dev nD) → (b : Ref sig .tc) → Buf (Elt Ideal) ((c : Thread nD τ).loc b))

theorem pay1_out_at (aA aB : Vec Ideal S5000x128 .f32) (nn : Vec Ideal S5000x1 .f32) (xx : Vec Ideal S5000x128 .f32)
    (wg : Vec Ideal S128x128 .f32) (bg : Vec Ideal S1x128 .f32) (wl : Vec Ideal S128x128 .f32) (bl : Vec Ideal S1x128 .f32)
    (y : S5000x128.Idx) (p : Fin 5000) (q : Fin 128) (hy : y = ix2 p q)
    (A B X G L : Fin 128 → EReal) (N Xq bG bL : EReal)
    (hA : ∀ k, aA (ix2 p k) = A k) (hB : ∀ k, aB (ix2 p k) = B k) (hN : nn (ix2 p 0) = N)
    (hX : ∀ k, xx (ix2 p k) = X k) (hXq : xx (ix2 p q) = Xq)
    (hG : ∀ k, wg (ix2 k q) = G k) (hbG : bg (ix2 0 q) = bG) (hL : ∀ k, wl (ix2 k q) = L k) (hbL : bl (ix2 0 q) = bL) :
    k1_pay3 aA aB nn xx wg bg wl bl y
      = (((∑ k : Fin 128, ((A k + B k) * N) * G k) + bG) + Xq) + ((∑ k : Fin 128, X k * L k) + bL) := by
  subst hy
  rw [pay1_out_apply, hN, hXq, hbG, hbL]
  simp only [hA, hB, hX, hG, hL]

theorem idx_facts1 : ∀ t : Fin cfg1.N,
    win1_0.index t (0 : Fin 2) = t.val ∧ win1_0.index t (1 : Fin 2) = 0
    ∧ win1_1.index t (0 : Fin 2) = 10 + t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val / 5 ∧ win1_9.index t (1 : Fin 2) = 0 :=
  (by decide +kernel : ∀ t : Fin grid1.N, _)

theorem node_lt (t : Fin cfg1.N) (p : Fin 5000) : 5000 * t.val + p.val < 50000 := by
  have hN : t.val < 10 := lt_of_lt_of_eq t.isLt (show cfg1.N = 10 from N_1)
  have := p.isLt
  omega

theorem blk_out (c : Dev nD) (t : Fin cfg1.N) (p : Fin 5000) (q : Fin 128) :
    k1_pay3 (iblk1 V c 0 t) (iblk1 V c 1 t) (iblk1 V c 3 t) (iblk1 V c 2 t) (iblk1 V c 4 t) (iblk1 V c 5 t) (iblk1 V c 6 t) (iblk1 V c 7 t) (ix2 p q)
      = outPre (V c main_v18) (V c main_arg0) (V c main_v21) (V c main_arg1) (V c main_v19) (V c main_arg3) (V c main_v20)
          ⟨5000 * t.val + p.val, node_lt t p⟩ q := by
  obtain ⟨e00, e01, e10, e11, e20, e21, e30, e31, e40, e41, e50, e51, e60, e61, e70, e71, e80, e81, e90, e91⟩ := idx_facts1 t
  have hN : t.val < 10 := lt_of_lt_of_eq t.isLt (show cfg1.N = 10 from N_1)
  have hp : p.val < 5000 := p.isLt
  have hq : q.val < 128 := q.isLt
  refine pay1_out_at _ _ _ _ _ _ _ _ (ix2 p q) p q rfl _ _ _ _ _ _ _ _ _ (fun k => ?_) (fun k => ?_) ?_ (fun k => ?_) ?_ (fun k => ?_) ?_ (fun k => ?_) ?_
  · exact congrArg (V c main_v18) (funext (Fin.forall_fin_two.2 ⟨
      Fin.ext (by show win1_0.index t (0 : Fin 2) * 5000 + 1 * p.val = 5000 * t.val + p.val; omega),
      Fin.ext (by show win1_0.index t (1 : Fin 2) * 128 + 1 * k.val = k.val; omega)⟩))
  · exact congrArg (V c main_v18) (funext (Fin.forall_fin_two.2 ⟨
      Fin.ext (by show win1_1.index t (0 : Fin 2) * 5000 + 1 * p.val = 50000 + (5000 * t.val + p.val); omega),
      Fin.ext (by show win1_1.index t (1 : Fin 2) * 128 + 1 * k.val = k.val; omega)⟩))
  · exact congrArg (V c main_v21) (funext (Fin.forall_fin_two.2 ⟨
      Fin.ext (by show win1_3.index t (0 : Fin 2) * 5000 + 1 * p.val = 5000 * t.val + p.val; omega),
      Fin.ext (by show win1_3.index t (1 : Fin 2) * 1 + 1 * 0 = 0; omega)⟩))
  · exact congrArg (V c main_arg0) (funext (Fin.forall_fin_two.2 ⟨
      Fin.ext (by show win1_2.index t (0 : Fin 2) * 5000 + 1 * p.val = 5000 * t.val + p.val; omega),
      Fin.ext (by show win1_2.index t (1 : Fin 2) * 128 + 1 * k.val = k.val; omega)⟩))
  · exact congrArg (V c main_arg0) (funext (Fin.forall_fin_two.2 ⟨
      Fin.ext (by show win1_2.index t (0 : Fin 2) * 5000 + 1 * p.val = 5000 * t.val + p.val; omega),
      Fin.ext (by show win1_2.index t (1 : Fin 2) * 128 + 1 * q.val = q.val; omega)⟩))
  · exact congrArg (V c main_arg1) (funext (Fin.forall_fin_two.2 ⟨
      Fin.ext (by show win1_4.index t (0 : Fin 2) * 128 + 1 * k.val = k.val; omega),
      Fin.ext (by show win1_4.index t (1 : Fin 2) * 128 + 1 * q.val = q.val; omega)⟩))
  · exact congrArg (V c main_v19) (funext (Fin.forall_fin_two.2 ⟨
      Fin.ext (by show win1_5.index t (0 : Fin 2) * 1 + 1 * 0 = 0; omega),
      Fin.ext (by show win1_5.index t (1 : Fin 2) * 128 + 1 * q.val = q.val; omega)⟩))
  · exact congrArg (V c main_arg3) (funext (Fin.forall_fin_two.2 ⟨
      Fin.ext (by show win1_6.index t (0 : Fin 2) * 128 + 1 * k.val = k.val; omega),
      Fin.ext (by show win1_6.index t (1 : Fin 2) * 128 + 1 * q.val = q.val; omega)⟩))
  · exact congrArg (V c main_v20) (funext (Fin.forall_fin_two.2 ⟨
      Fin.ext (by show win1_7.index t (0 : Fin 2) * 1 + 1 * 0 = 0; omega),
      Fin.ext (by show win1_7.index t (1 : Fin 2) * 128 + 1 * q.val = q.val; omega)⟩))

abbrev G8 (c : Dev nD) : S50000x128.Idx → EReal := fun i =>
  outPre (V c main_v18) (V c main_arg0) (V c main_v21) (V c main_arg1) (V c main_v19) (V c main_arg3) (V c main_v20) (i 0) (i 1)

theorem flushed1_8_eq (c : Dev nD) (t : Fin cfg1.N) :
    (dat1 (F := Ideal) V c).flushed 8 t = ((cfg1.win 8).blk t).view.read (Elt Ideal) (G8 V c) := by
  show (cfg1.win 8).cut (grid1.coords t) ((dat1 (F := Ideal) V c).after 8 t) = _
  rw [after1_8_eq]
  obtain ⟨e00, e01, e10, e11, e20, e21, e30, e31, e40, e41, e50, e51, e60, e61, e70, e71, e80, e81, e90, e91⟩ := idx_facts1 t
  funext y
  have hy0 : (y 0).val < 5000 := (y 0).isLt
  have hy1 : (y 1).val < 128 := (y 1).isLt
  have hy : y = ix2 (y 0 : Fin 5000) (y 1 : Fin 128) := eq_ix2 (n0 := 5000) (n1 := 128) y
  refine (congrArg _ hy).trans ((blk_out V c t (y 0) (y 1)).trans ?_)
  show outPre (V c main_v18) (V c main_arg0) (V c main_v21) (V c main_arg1) (V c main_v19) (V c main_arg3) (V c main_v20) ⟨5000 * t.val + (y 0).val, _⟩ (y 1)
    = outPre (V c main_v18) (V c main_arg0) (V c main_v21) (V c main_arg1) (V c main_v19) (V c main_arg3) (V c main_v20)
        ((((cfg1.win 8).blk t).view.emb y) 0) ((((cfg1.win 8).blk t).view.emb y) 1)
  congr 1
  · apply Fin.ext
    show 5000 * t.val + (y 0).val = win1_8.index t (0 : Fin 2) * 5000 + 1 * (y 0).val
    omega
  · apply Fin.ext
    show (y 1).val = win1_8.index t (1 : Fin 2) * 128 + 1 * (y 1).val
    omega

theorem cover1_8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨e00, e01, e10, e11, e20, e21, e30, e31, e40, e41, e50, e51, e60, e61, e70, e71, e80, e81, e90, e91⟩ := idx_facts1 t
  refine ⟨t, flush1_8 t, ?_⟩
  show i ∈ ((View.whole main_v22_0).slice (win1_8.rect t)).set
  rw [View.set_slice_whole, Rect.mem_set_unit]
  exact Fin.forall_fin_two.2 ⟨
    by show win1_8.index t (0 : Fin 2) * 5000 ≤ (i 0).val ∧ (i 0).val < win1_8.index t (0 : Fin 2) * 5000 + 5000; omega,
    by show win1_8.index t (1 : Fin 2) * 128 ≤ (i 1).val ∧ (i 1).val < win1_8.index t (1 : Fin 2) * 128 + 128; omega⟩

theorem arrAt1_8 (c : Dev nD) (n : Fin 50000) (j : Fin 128) :
    (dat1 (F := Ideal) V c).arrAt 8 cfg1.N (ix2 n j)
      = outPre (V c main_v18) (V c main_arg0) (V c main_v21) (V c main_arg1) (V c main_v19) (V c main_arg3) (V c main_v20) n j := by
  rw [(dat1 (F := Ideal) V c).arrAt_eq_of_cover 8 (G8 V c) (fun t _ => flushed1_8_eq V c t) cover1_8]

abbrev pt1 (h : Fin 2) (i : Fin 5) : Fin cfg1.N := ⟨5 * h.val + i.val, by
  have hN : cfg1.N = 10 := N_1
  have := h.isLt; have := i.isLt; rw [hN]; omega⟩

theorem half_lt (h : Fin 2) (n : Fin 25000) : 25000 * h.val + n.val < 50000 := by
  have := h.isLt; have := n.isLt; omega

theorem sum_core (c : Dev nD) (h : Fin 2) (j : Fin 128) :
    (∑ i : Fin 5, ∑ p : Fin 5000,
        k1_pay3 (iblk1 V c 0 (pt1 h i)) (iblk1 V c 1 (pt1 h i)) (iblk1 V c 3 (pt1 h i)) (iblk1 V c 2 (pt1 h i))
          (iblk1 V c 4 (pt1 h i)) (iblk1 V c 5 (pt1 h i)) (iblk1 V c 6 (pt1 h i)) (iblk1 V c 7 (pt1 h i)) (ix2 p j))
      = ∑ n : Fin 25000, outPre (V c main_v18) (V c main_arg0) (V c main_v21) (V c main_arg1) (V c main_v19) (V c main_arg3) (V c main_v20)
          ⟨25000 * h.val + n.val, half_lt h n⟩ j := by
  rw [Cert.SumSplit.sum_blocks5 (fun n : Fin 25000 =>
    outPre (V c main_v18) (V c main_arg0) (V c main_v21) (V c main_arg1) (V c main_v19) (V c main_arg3) (V c main_v20)
      ⟨25000 * h.val + n.val, half_lt h n⟩ j)]
  refine Finset.sum_congr rfl fun i _ => Finset.sum_congr rfl fun p _ => ?_
  refine (blk_out V c (pt1 h i) p j).trans ?_
  congr 1
  apply Fin.ext
  show 5000 * (5 * h.val + i.val) + p.val = 25000 * h.val + (5000 * i.val + p.val)
  omega

theorem arrAt1_9 (c : Dev nD) (h : Fin 2) (j : Fin 128) :
    (dat1 (F := Ideal) V c).arrAt 9 cfg1.N (ix2 (⟨8 * h.val, by have := h.isLt; omega⟩ : Fin 16) j)
      = ∑ n : Fin 25000, outPre (V c main_v18) (V c main_arg0) (V c main_v21) (V c main_arg1) (V c main_v19) (V c main_arg3) (V c main_v20)
          ⟨25000 * h.val + n.val, half_lt h n⟩ j :=
  (arrAt1_9_raw V c h j).trans (sum_core V c h j)

end Cert.KernelIdeal.HandVal

end
-- ==== Proof.BridgeA.lean ====
import proofs.«421496_j55748675502408_4_alg».proof.Proof.KiEntry
import proofs.«421496_j55748675502408_4_alg».proof.Proof.KiHost
import proofs.«421496_j55748675502408_4_alg».proof.Proof.KiVal0
import proofs.«421496_j55748675502408_4_alg».proof.Proof.KiVal1
import proofs.«421496_j55748675502408_4_alg».proof.Proof.SumSplit
import proofs.«421496_j55748675502408_4_alg».proof.Proof.Spec
import Idealize.ShloMosaic.Lib.ValueIdx

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Cert.SumSplit

/-- The index `a * h + b` at the half `h = 0` and at the half `h = 1`. -/
theorem half0 {N : ℕ} (a b : ℕ) (p : a * (0 : Fin 2).val + b < N) :
    (⟨a * (0 : Fin 2).val + b, p⟩ : Fin N) = ⟨b, by simpa using p⟩ := Fin.ext (by simp)
theorem half1 {N : ℕ} (a b : ℕ) (p : a * (1 : Fin 2).val + b < N) :
    (⟨a * (1 : Fin 2).val + b, p⟩ : Fin N) = ⟨a + b, by simpa using p⟩ := Fin.ext (by simp)

section Pure
variable {x : Cert.Spec.Feat} {wg : Cert.Spec.Wt} {bg : Cert.Spec.Row} {wl : Cert.Spec.Wt} {bl : Cert.Spec.Row}
  {s d : Cert.Spec.Ends}

theorem Agg0_eq (v0 v1 : IVec S800000 32) (v17 : FVec Ideal S50000x128 .f32) (hv0 : v0 = s) (hv1 : v1 = d)
    (hs : Cert.Spec.InRange s) (hd : Cert.Spec.InRange d) (h17 : ∀ n k, v17 (ix2 n k) = Cert.Spec.hft x s n k)
    (h : Fin 2) (n : Fin 50000) (k : Fin 128) :
    Agg0 v0 v1 v17 h n k
      = ∑ e ∈ Finset.univ.filter (fun e : Fin 400000 => (d (ix1 ⟨400000 * h.val + e.val, by omega⟩)).toInt = (n.val : Int)),
          Cert.Spec.hft x s (Cert.Spec.node (s (ix1 ⟨400000 * h.val + e.val, by omega⟩))) k := by
  subst hv0 hv1
  unfold Agg0
  refine Finset.sum_congr (Finset.filter_congr fun e _ => ?_) fun e _ => ?_
  · exact (toInt_eq_iff _ (hd _).1 n.val).symm
  · rw [h17]
    exact congrArg (fun y => Cert.Spec.hft x v0 y k)
      (Fin.ext ((min_toNat _ (hs _).1 (hs _).2).trans (node_val _ (hs _).1 (hs _).2).symm))

theorem halves_agg (X : FVec Ideal S100000x128 .f32) (v0 v1 : IVec S800000 32) (v17 : FVec Ideal S50000x128 .f32)
    (hv0 : v0 = s) (hv1 : v1 = d) (hs : Cert.Spec.InRange s) (hd : Cert.Spec.InRange d)
    (h17 : ∀ n k, v17 (ix2 n k) = Cert.Spec.hft x s n k)
    (hX : ∀ (h : Fin 2) (n : Fin 50000) (k : Fin 128), X (ix2 ⟨50000 * h.val + n.val, by omega⟩ k) = Agg0 v0 v1 v17 h n k)
    (n : Fin 50000) (k : Fin 128) :
    X (ix2 ⟨n.val, by omega⟩ k) + X (ix2 ⟨50000 + n.val, by omega⟩ k) = Cert.Spec.agg x s d n k := by
  have l0 := (hX 0 n k).trans (Agg0_eq v0 v1 v17 hv0 hv1 hs hd h17 0 n k)
  have l1 := (hX 1 n k).trans (Agg0_eq v0 v1 v17 hv0 hv1 hs hd h17 1 n k)
  simp only [half0, half1] at l0 l1
  rw [l0, l1]
  unfold Cert.Spec.agg Cert.Spec.at_
  exact (sum_filter_halves (fun e : Fin 800000 => (d (ix1 e)).toInt = (n.val : Int))
    (fun e => Cert.Spec.hft x s (Cert.Spec.node (s (ix1 e))) k)).symm

theorem outPre_eq (a18 : FVec Ideal S100000x128 .f32) (x' : FVec Ideal S50000x128 .f32) (nd : FVec Ideal S50000x1 .f32)
    (wg' : FVec Ideal S128x128 .f32) (bg' : FVec Ideal S1x128 .f32) (wl' : FVec Ideal S128x128 .f32) (bl' : FVec Ideal S1x128 .f32)
    (hx : x' = x) (hwg : wg' = wg) (hwl : wl' = wl)
    (hsum : ∀ n k, a18 (ix2 ⟨n.val, by omega⟩ k) + a18 (ix2 ⟨50000 + n.val, by omega⟩ k) = Cert.Spec.agg x s d n k)
    (hnd : ∀ n, nd (ix2 n 0) = Cert.Spec.nrm d n) (hbg : ∀ j, bg' (ix2 0 j) = bg (ix1 j)) (hbl : ∀ j, bl' (ix2 0 j) = bl (ix1 j))
    (n : Fin 50000) (j : Fin 128) :
    outPre a18 x' nd wg' bg' wl' bl' n j = Cert.Spec.pre x wg bg wl bl s d n j := by
  subst hx hwg hwl
  unfold outPre Cert.Spec.pre
  simp only [hsum, hnd, hbg, hbl]

end Pure

section Compose
variable (m : (ℓ : Loc nD τ sig) → Buf (Elt Ideal) ℓ) (c : Dev nD)

/-- The layer before normalisation, as the specification states it of the launch arguments. -/
abbrev preA : Fin 50000 → Fin 128 → EReal :=
  Cert.Spec.pre (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg7))
    (m ((c.tc : Thread nD τ).loc main_arg8))

variable (h7 : Cert.Spec.InRange (m ((c.tc : Thread nD τ).loc main_arg7)))
  (h8 : Cert.Spec.InRange (m ((c.tc : Thread nD τ).loc main_arg8)))
include h7 h8

theorem act_eq (n : Fin 50000) (j : Fin 128) :
    (dat1 (F := Ideal) (Vin1 m) c).arrAt 8 cfg1.N (ix2 n j) = preA m c n j :=
  (arrAt1_8 (Vin1 m) c n j).trans <|
    outPre_eq (Vin1 m c main_v18) (Vin1 m c main_arg0) (Vin1 m c main_v21) (Vin1 m c main_arg1) (Vin1 m c main_v19)
      (Vin1 m c main_arg3) (Vin1 m c main_v20)
      (W7_main_arg0 m c) (W7_main_arg1 m c) (W7_main_arg3 m c)
      (halves_agg (Vin1 m c main_v18) (Vin0 m c main_v0) (Vin0 m c main_v1) (Vin0 m c main_v17)
        (pre0_v0 (W0 m c) h7) (pre0_v1 (W0 m c) h8) h7 h8 (pre0_v17 (W0 m c) h7)
        (fun h n' k' => (congrFun (W7_main_v18 m c) _).trans (arrAt0_3 (Vin0 m) (inRange5 m) c h n' k')))
      (fun n' => (host1_v21 (W6 m c) n').trans <| (congrFun (W6_main_v14 m c) _).trans (pre0_v14 (W0 m c) h8 n'))
      (fun j' => (host1_v19 (W6 m c) j').trans (congrFun (W6_main_arg2 m c) _))
      (fun j' => (host1_v20 (W6 m c) j').trans (congrFun (W6_main_arg4 m c) _))
      n j

theorem colsum_eq (h : Fin 2) (j : Fin 128) :
    (dat1 (F := Ideal) (Vin1 m) c).arrAt 9 cfg1.N (ix2 ⟨8 * h.val, by omega⟩ j)
      = (∑ n : Fin 25000, preA m c ⟨25000 * h.val + n.val, by omega⟩ j : EReal) :=
  (arrAt1_9 (Vin1 m) c h j).trans <| Finset.sum_congr (M := EReal) rfl fun n _ =>
    ((arrAt1_8 (Vin1 m) c ⟨25000 * h.val + n.val, half_lt h n⟩ j).symm.trans
      (act_eq m c h7 h8 ⟨25000 * h.val + n.val, half_lt h n⟩ j))

end Compose

end Cert.KernelIdeal.HandVal

end
-- ==== Proof.Bridge.lean ====
import proofs.«421496_j55748675502408_4_alg».proof.Proof.KiRun
import proofs.«421496_j55748675502408_4_alg».proof.Proof.KiEntry
import proofs.«421496_j55748675502408_4_alg».proof.Proof.KiHost
import proofs.«421496_j55748675502408_4_alg».proof.Proof.KiVal2
import proofs.«421496_j55748675502408_4_alg».proof.Proof.KiVal3
import proofs.«421496_j55748675502408_4_alg».proof.Proof.BridgeA
import proofs.«421496_j55748675502408_4_alg».proof.Proof.SumSplit
import proofs.«421496_j55748675502408_4_alg».proof.Proof.Spec
import Idealize.ShloMosaic.Lib.Pipeline.Value
import Idealize.ShloMosaic.Lib.ValueIdx

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Cert.SumSplit

theorem lo8 (p : 8 * (0 : Fin 2).val < 16) : (⟨8 * (0 : Fin 2).val, p⟩ : Fin 16) = 0 := Fin.ext (by simp)
theorem hi8 (p : 8 * (1 : Fin 2).val < 16) : (⟨8 * (1 : Fin 2).val, p⟩ : Fin 16) = 8 := Fin.ext (by simp)

section Stat
variable (p : Fin 50000 → Fin 128 → EReal) {gamma beta : Cert.Spec.Row}

theorem rowsMean_of_halves (X : FVec Ideal S16x128 .f32)
    (hX : ∀ (h : Fin 2) (j : Fin 128), X (ix2 ⟨8 * h.val, by omega⟩ j) = ∑ n : Fin 25000, p ⟨25000 * h.val + n.val, by omega⟩ j)
    (j : Fin 128) : rowsMean X j = Cert.Spec.mean p j := by
  have l0 := hX 0 j
  have l1 := hX 1 j
  simp only [lo8, hi8, half0, half1] at l0 l1
  unfold rowsMean Cert.Spec.mean
  rw [l0, l1, sum_halves (fun n => p n j)]

theorem G3_eq (a : FVec Ideal S50000x128 .f32) (mu istd g b : FVec Ideal S1x128 .f32)
    (ha : ∀ n q, a (ix2 n q) = p n q) (hmu : ∀ q, mu (ix2 0 q) = Cert.Spec.mean p q)
    (his : ∀ q, istd (ix2 0 q) = Ideal.rsqrt (Cert.Spec.var p q + Cert.Spec.eps))
    (hg : ∀ q, g (ix2 0 q) = gamma (ix1 q)) (hb : ∀ q, b (ix2 0 q) = beta (ix1 q)) (n : Fin 50000) (q : Fin 128) :
    G3 a mu istd g b (ix2 n q) = Cert.Spec.bn p gamma beta n q := by
  show max ((((a (ix2 n q) - mu (ix2 0 q)) * istd (ix2 0 q)) * g (ix2 0 q)) + b (ix2 0 q)) (0 : EReal) = _
  rw [ha, hmu, his, hg, hb]
  rfl

end Stat

section Run
variable (m : (ℓ : Loc nD τ sig) → Buf (Elt Ideal) ℓ) (c : Dev nD)
  (h7 : Cert.Spec.InRange (m ((c.tc : Thread nD τ).loc main_arg7)))
  (h8 : Cert.Spec.InRange (m ((c.tc : Thread nD τ).loc main_arg8)))

include h7 h8

theorem mean_row (j : Fin 128) : rowsMean (W8 m c main_v22_1) j = Cert.Spec.mean (preA m c) j :=
  rowsMean_of_halves (preA m c) (W8 m c main_v22_1)
    (fun h j => (congrFun (W8_main_v22_1 m c) _).trans (colsum_eq m c h7 h8 h j)) j

theorem sqsum_eq (h : Fin 2) (j : Fin 128) :
    (W10 m c main_v31 : FVec Ideal S16x128 .f32) (ix2 ⟨8 * h.val, by omega⟩ j)
      = ∑ n : Fin 25000, (preA m c ⟨25000 * h.val + n.val, by omega⟩ j - Cert.Spec.mean (preA m c) j)
          * (preA m c ⟨25000 * h.val + n.val, by omega⟩ j - Cert.Spec.mean (preA m c) j) := by
  have ea : ∀ n : Fin 50000, xarr2 (Vin2 m) c (ix2 n j) = preA m c n j :=
    fun n => (congrFun (W9_main_v22_0 m c) (ix2 n j)).trans (act_eq m c h7 h8 n j)
  have emu : marr2 (Vin2 m) c (ix2 (0 : Fin 1) j) = Cert.Spec.mean (preA m c) j :=
    (host2_v30 (W8 m c) j).trans (mean_row m c h7 h8 j)
  refine (congrFun (W10_main_v31 m c) _).trans ((arrAt2_2 (Vin2 m) c h j).trans ?_)
  exact Finset.sum_congr rfl fun n _ => by rw [ea, emu]

/-- The variance is the mean of the squared deviations. -/
theorem istd_row (j : Fin 128) :
    rowsIstd (W10 m c main_v31) j = Ideal.rsqrt (Cert.Spec.var (preA m c) j + Cert.Spec.eps) :=
  congrArg (fun v => Ideal.rsqrt (v + Cert.Spec.eps)) <| rowsMean_of_halves
    (fun n j => (preA m c n j - Cert.Spec.mean (preA m c) j) * (preA m c n j - Cert.Spec.mean (preA m c) j))
    (W10 m c main_v31) (sqsum_eq m c h7 h8) j

end Run

theorem kernel_result (m : (ℓ : Loc nD τ sig) → Buf (Elt Ideal) ℓ) (c : Dev nD)
    (h7 : Cert.Spec.InRange (m ((c.tc : Thread nD τ).loc main_arg7)))
    (h8 : Cert.Spec.InRange (m ((c.tc : Thread nD τ).loc main_arg8))) :
    (Cert.KernelIdeal.Hand.dat3 (F := Ideal) (Cert.KernelIdeal.Hand.Vin3 m) c).arrAt 5 cfg3.N
      = fun j => Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (j 0) (j 1) := by
  refine (arrAt3_5 (Vin3 m) c).trans (funext fun j => ?_)
  obtain ⟨n, q, rfl⟩ : ∃ (n : Fin 50000) (q : Fin 128), j = ix2 n q := ⟨j 0, j 1, eq_ix2 j⟩
  exact G3_eq (preA m c) (Vin3 m c main_v22_0) (Vin3 m c main_v42) (Vin3 m c main_v43) (Vin3 m c main_v44) (Vin3 m c main_v45)
    (fun n q => (congrFun (W11_main_v22_0 m c) (ix2 n q)).trans (act_eq m c h7 h8 n q))
    (fun q => (host3_v42 (W10 m c) q).trans ((congrFun (W10_main_v29 m c) (ix1 q)).trans
      ((host2_v29 (W8 m c) q).trans (mean_row m c h7 h8 q))))
    (fun q => (host3_v43 (W10 m c) q).trans (istd_row m c h7 h8 q))
    (fun q => (host3_v44 (W10 m c) q).trans (congrFun (W10_main_arg5 m c) (ix1 q)))
    (fun q => (host3_v45 (W10 m c) q).trans (congrFun (W10_main_arg6 m c) (ix1 q)))
    n q

end Cert.KernelIdeal.HandVal

end
-- ==== Proof.lean ====
import proofs.«421496_j55748675502408_4_alg».proof.Defs
import proofs.«421496_j55748675502408_4_alg».proof.Proof.Gen.Kernel
import proofs.«421496_j55748675502408_4_alg».proof.Proof.Gen.KernelIdeal
import proofs.«421496_j55748675502408_4_alg».proof.Proof.Gen.ReferenceIdeal
import proofs.«421496_j55748675502408_4_alg».proof.Proof.Gen.Pre_finite_inputs
import proofs.«421496_j55748675502408_4_alg».proof.Proof.Gen.ReferenceIdeal.Run
import proofs.«421496_j55748675502408_4_alg».proof.Proof.Gen.ReferenceIdeal.Read
import proofs.«421496_j55748675502408_4_alg».proof.Proof.KbRun
import proofs.«421496_j55748675502408_4_alg».proof.Proof.KiRun
import proofs.«421496_j55748675502408_4_alg».proof.Proof.RefVal
import proofs.«421496_j55748675502408_4_alg».proof.Proof.PreDecode
import proofs.«421496_j55748675502408_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Hand.run_result (F := Bits) m ρ)

theorem frame_ki : Cert.frame_KernelIdeal := fun m ρ _ =>
  (θ_run Cert.KernelIdeal.defs _ _).mono (fun _ h c => (h c).2) (Cert.KernelIdeal.Hand.run_result (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => (Cert.KernelIdeal.Hand.dat3 (F := Ideal) (Cert.KernelIdeal.Hand.Vin3 m) c).arrAt 5 Cert.KernelIdeal.cfg3.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h7, h8⟩ := Cert.Pre_finite_inputs.Decode.inRange_of_pre _ _ _ _ _ _ _ _ _ (hpre c)
  rw [Cert.ReferenceIdeal.Read.val_main_v64_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  refine Eq.trans ?_ (Cert.KernelIdeal.HandVal.kernel_result m c h7 h8).symm
  funext i
  exact Cert.ReferenceIdeal.RefVal.result_eq _ _ _ _ _ _ _ _ _ h7 h8 i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
